-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23_1)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_1) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x100000 : Shape := ⟨2, ![64, 100000]⟩
abbrev S64 : Shape := ⟨1, ![64]⟩
abbrev S256x128 : Shape := ⟨2, ![256, 128]⟩
abbrev S256 : Shape := ⟨1, ![256]⟩
abbrev S16x320 : Shape := ⟨2, ![16, 320]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x100000 : S_.BroadcastsInDim S64x100000 (![] : Fin 0 → Fin S64x100000.rank)
  reducesTo_S64x100000_S_d0_1 : S64x100000.ReducesTo [0, 1] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S16x320 : S_.BroadcastsInDim S16x320 (![] : Fin 0 → Fin S16x320.rank)
  reducesTo_S16x320_S_d0_1 : S16x320.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S256 .f32) (main_arg6 : FVec F S16x320 .f32) (main_arg7 : FVec F S16 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x320 .f32 := Host.absf main_arg6
  let main_cst_8 : FVec F S_ .f32 := constant S_ .f32 0x7F800000#32
  let main_v25 : FVec F S16x320 .f32 := broadcastInDim S16x320 ![] bcast_S_S16x320 main_cst_8
  let main_v26 : IVec S16x320 1 := cmpf .olt main_v24 main_v25
  let main_c_9 : IVec S_ 1 := constantI S_ 1 1#1
  let main_v27 : IVec S_ 1 := (fun x v => Host.reduce IntOp.andi x v reducesTo_S16x320_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x100000 .f32) (main_arg3 : FVec F S64 .f32) (main_arg4 : FVec F S256x128 .f32) (main_arg5 : FVec F S256 .f32) (main_arg6 : FVec F S16x320 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x100000 .f32 := Host.absf main_arg2
  let main_cst_0 : FVec F S_ .f32 := constant S_ .f32 0x7F800000#32
  let main_v5 : FVec F S64x100000 .f32 := broadcastInDim S64x100000 ![] bcast_S_S64x100000 main_cst_0
  let main_v6 : IVec S64x100000 1 := cmpf .olt main_v4 main_v5
  let main_c_1 : IVec S_ 1 := constantI S_ 1 1#1
  let main_v7 : IVec S_ 1 := (fun x v => Host.reduce IntOp.andi x v reducesTo_S64x100000_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x100000 : Shape := ⟨2, ![64, 100000]⟩
abbrev S64 : Shape := ⟨1, ![64]⟩
abbrev S256x128 : Shape := ⟨2, ![256, 128]⟩
abbrev S256 : Shape := ⟨1, ![256]⟩
abbrev S16x320 : Shape := ⟨2, ![16, 320]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S128x256 : Shape := ⟨2, ![128, 256]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩
abbrev S320x16 : Shape := ⟨2, ![320, 16]⟩
abbrev S1x16 : Shape := ⟨2, ![1, 16]⟩
abbrev S100000x16 : Shape := ⟨2, ![100000, 16]⟩
abbrev S5000x64 : Shape := ⟨2, ![5000, 64]⟩
abbrev S5000x16 : Shape := ⟨2, ![5000, 16]⟩
abbrev S5000 : Shape := ⟨1, ![5000]⟩
abbrev S5000x1 : Shape := ⟨2, ![5000, 1]⟩
abbrev S5000x320 : Shape := ⟨2, ![5000, 320]⟩
abbrev S100000 : Shape := ⟨1, ![100000]⟩
abbrev S100000x1 : Shape := ⟨2, ![100000, 1]⟩
abbrev S1x1 : Shape := ⟨2, ![1, 1]⟩
abbrev S64x64 : Shape := ⟨2, ![64, 64]⟩
abbrev S1x5000x64 : Shape := ⟨3, ![1, 5000, 64]⟩
abbrev S1 : Shape := ⟨1, ![1]⟩
abbrev S1x1x1 : Shape := ⟨3, ![1, 1, 1]⟩

abbrev nBuf : Space → Nat
  | .hbm => 86
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x100000, .f32⟩
  | .hbm, ⟨3, _⟩ => ⟨S64, .f32⟩
  | .hbm, ⟨4, _⟩ => ⟨S256x128, .f32⟩
  | .hbm, ⟨5, _⟩ => ⟨S256, .f32⟩
  | .hbm, ⟨6, _⟩ => ⟨S16x320, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S128x256, .f32⟩
  | .hbm, ⟨30, _⟩ => ⟨S1x256, .f32⟩
  | .hbm, ⟨31, _⟩ => ⟨S100000x256, .bf16⟩
  | .hbm, ⟨32, _⟩ => ⟨S320x16, .f32⟩
  | .hbm, ⟨33, _⟩ => ⟨S1x16, .f32⟩
  | .hbm, ⟨34, _⟩ => ⟨S100000x64, .f32⟩
  | .hbm, ⟨35, _⟩ => ⟨S100000x16, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S100000x1, .f32⟩
  | .hbm, ⟨56, _⟩ => ⟨S1x1, .f32⟩
  | .hbm, ⟨57, _⟩ => ⟨S1x1, .f32⟩
  | .hbm, ⟨58, _⟩ => ⟨S64x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S64x64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S64x64, .f32⟩
  | .hbm, ⟨68, _⟩ => ⟨S64x64, .f32⟩
  | .hbm, ⟨69, _⟩ => ⟨S64x64, .i32⟩
  | .hbm, ⟨70, _⟩ => ⟨S64x64, .i32⟩
  | .hbm, ⟨71, _⟩ => ⟨S_, .i32⟩
  | .hbm, ⟨72, _⟩ => ⟨S64x64, .i32⟩
  | .hbm, ⟨73, _⟩ => ⟨S64x64, .i32⟩
  | .hbm, ⟨74, _⟩ => ⟨S64x64, .i1⟩
  | .hbm, ⟨75, _⟩ => ⟨S64x64, .f32⟩
  | .hbm, ⟨76, _⟩ => ⟨S_, .f32⟩
  | .hbm, ⟨77, _⟩ => ⟨S_, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .bf16⟩
  | .local _ .vmem, ⟨5, _⟩ => ⟨S5000x256, .bf16⟩
  | .local _ .vmem, ⟨6, _⟩ => ⟨S5000x64, .f32⟩
  | .local _ .vmem, ⟨7, _⟩ => ⟨S5000x64, .f32⟩
  | .local _ .vmem, ⟨8, _⟩ => ⟨S5000x256, .bf16⟩
  | .local _ .vmem, ⟨9, _⟩ => ⟨S5000x256, .bf16⟩
  | .local _ .vmem, ⟨10, _⟩ => ⟨S320x16, .f32⟩
  | .local _ .vmem, ⟨11, _⟩ => ⟨S1x16, .f32⟩
  | .local _ .vmem, ⟨12, _⟩ => ⟨S5000x64, .f32⟩
  | .local _ .vmem, ⟨13, _⟩ => ⟨S5000x64, .f32⟩
  | .local _ .vmem, ⟨14, _⟩ => ⟨S5000x16, .f32⟩
  | .local _ .vmem, ⟨15, _⟩ => ⟨S5000x16, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S1x1, .f32⟩
  | .local _ .vmem, ⟨23, _⟩ => ⟨S1x1, .f32⟩
  | .local _ .vmem, ⟨24, _⟩ => ⟨S64x64, .f32⟩
  | .local _ .vmem, ⟨25, _⟩ => ⟨S1x1, .f32⟩
  | .local _ .vmem, ⟨26, _⟩ => ⟨S1x1, .f32⟩
  | .local _ .vmem, ⟨27, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v39_2 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_v0 : Ref sig .tc := ⟨.hbm, 63, rfl⟩
abbrev main_call0_cst : Ref sig .tc := ⟨.hbm, 64, rfl⟩
abbrev main_call0_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_scratch0 : Ref sig .tc := ⟨.vmem, 25, rfl⟩
abbrev cc2_scratch1 : Ref sig .tc := ⟨.vmem, 26, rfl⟩
abbrev cc2_scratch2 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S320x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v40 : BitVec 1 := Scalar.cmpi .eq arg0 c19_i32
  let v41 : BitVec 32 := Scalar.extui v40
  let c0_i32_20 : BitVec 32 := 0#32
  let v42 : BitVec 1 := Scalar.cmpi .ne v41 c0_i32_20
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x100000_S100000x64_1_0 : S64x100000.Transposes [1, 0] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S256x128_S128x256_1_0 : S256x128.Transposes [1, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  transposes_S16x320_S320x16_1_0 : S16x320.Transposes [1, 0] S320x16
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  shapeCasts_S5000x256_S5000x256 : S5000x256.ShapeCasts S5000x256
  concatenates_S5000x256_S5000x64_S5000x320_d1 : Shape.Concatenates [S5000x256, S5000x64] S5000x320 1
  inb_S320x16_S320x16_0_0 : ∀ a, (![0, 0] : Fin 2 → Nat) a + S320x16.size a ≤ S320x16.size a
  h_S320x16 : 0 < S320x16.numel
  shapeCasts_S320x16_S320x16 : S320x16.ShapeCasts S320x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000 : S_.BroadcastsInDim S100000 (![] : Fin 0 → Fin S100000.rank)
  shapeCasts_S100000_S100000x1 : S100000.ShapeCasts S100000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S1x5000x64 : S5000x64.ShapeCasts S1x5000x64
  reduces_S1x5000x64_S1 : S1x5000x64.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  reducesTo_S64x64_S_d0_1 : S64x64.ReducesTo [0, 1] S_
  h_S_ : 0 < S_.numel
  bcast_S_S64x64 : S_.BroadcastsInDim S64x64 (![] : Fin 0 → Fin S64x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x256_S5000x256_1_0_0_1_n_n_wf : DotDims.WF S5000x128 S128x256 S5000x256 [1] [0] [0] [1] [] []
  dot_S5000x320_S320x16_S5000x16_1_0_0_1_n_n_wf : DotDims.WF S5000x320 S320x16 S5000x16 [1] [0] [0] [1] [] []
  scatter_S100000_S1600000x1_S1600000_n_0_0_1_wf : ScatterDims.WF S100000 S1600000x1 S1600000 [] [0] [0] 1
  dot_S5000x64_S5000x64_S64x64_0_0_1_1_n_n_wf : DotDims.WF S5000x64 S5000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .bf16 = 32 ∨ (Rect.block (s := S100000x256) S5000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .bf16 = 32 ∨ (Rect.block (s := S100000x256) S5000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S320x16.size a ≤ S320x16.size a
  hwx1_2 : ∀ i : grid1.Coords, EltTy.bits .f32 = 32 ∨ (Rect.block (s := S320x16) S320x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x320_S320x16_S5000x16_1_0_0_1_n_n : DotDims S5000x320 S320x16 S5000x16 where
  lhsContracting := [1]
  rhsContracting := [0]
  lhsNonContracting := [0]
  rhsNonContracting := [1]
  lhsBatch := []
  rhsBatch := []
  wf := dot_S5000x320_S320x16_S5000x16_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S320x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39_0) S1x1.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39_1) S1x1.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_2) S64x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond2 i == 1#1) | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S64x100000 : Shape := ⟨2, ![64, 100000]⟩
abbrev S64 : Shape := ⟨1, ![64]⟩
abbrev S256x128 : Shape := ⟨2, ![256, 128]⟩
abbrev S256 : Shape := ⟨1, ![256]⟩
abbrev S16x320 : Shape := ⟨2, ![16, 320]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S128x256 : Shape := ⟨2, ![128, 256]⟩
abbrev S100000x256 : Shape := ⟨2, ![100000, 256]⟩
abbrev S1x256 : Shape := ⟨2, ![1, 256]⟩
abbrev S100000 : Shape := ⟨1, ![100000]⟩
abbrev S100000x1 : Shape := ⟨2, ![100000, 1]⟩
abbrev S64x64 : Shape := ⟨2, ![64, 64]⟩
abbrev S100000x320 : Shape := ⟨2, ![100000, 320]⟩
abbrev S320x16 : Shape := ⟨2, ![320, 16]⟩
abbrev S100000x16 : Shape := ⟨2, ![100000, 16]⟩
abbrev S1x16 : Shape := ⟨2, ![1, 16]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x100000, .f32⟩
  | .hbm, ⟨3, _⟩ => ⟨S64, .f32⟩
  | .hbm, ⟨4, _⟩ => ⟨S256x128, .f32⟩
  | .hbm, ⟨5, _⟩ => ⟨S256, .f32⟩
  | .hbm, ⟨6, _⟩ => ⟨S16x320, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S128x256, .f32⟩
  | .hbm, ⟨30, _⟩ => ⟨S100000x256, .f32⟩
  | .hbm, ⟨31, _⟩ => ⟨S1x256, .f32⟩
  | .hbm, ⟨32, _⟩ => ⟨S100000x256, .f32⟩
  | .hbm, ⟨33, _⟩ => ⟨S100000x256, .f32⟩
  | .hbm, ⟨34, _⟩ => ⟨S_, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S64x100000, .f32⟩
  | .hbm, ⟨79, _⟩ => ⟨S64x64, .f32⟩
  | .hbm, ⟨80, _⟩ => ⟨S64x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S64x64, .f32⟩
  | .hbm, ⟨85, _⟩ => ⟨S64x64, .f32⟩
  | .hbm, ⟨86, _⟩ => ⟨S64x64, .i32⟩
  | .hbm, ⟨87, _⟩ => ⟨S64x64, .i32⟩
  | .hbm, ⟨88, _⟩ => ⟨S_, .i32⟩
  | .hbm, ⟨89, _⟩ => ⟨S64x64, .i32⟩
  | .hbm, ⟨90, _⟩ => ⟨S64x64, .i32⟩
  | .hbm, ⟨91, _⟩ => ⟨S64x64, .i1⟩
  | .hbm, ⟨92, _⟩ => ⟨S64x64, .f32⟩
  | .hbm, ⟨93, _⟩ => ⟨S_, .f32⟩
  | .hbm, ⟨94, _⟩ => ⟨S_, .f32⟩
  | .hbm, ⟨95, _⟩ => ⟨S64x64, .f32⟩
  | .hbm, ⟨96, _⟩ => ⟨S64x64, .f32⟩
  | .hbm, ⟨97, _⟩ => ⟨S64x64, .f32⟩
  | .hbm, ⟨98, _⟩ => ⟨S64x64, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S100000x320, .f32⟩
  | .hbm, ⟨103, _⟩ => ⟨S320x16, .f32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x16, .f32⟩
  | .hbm, ⟨115, _⟩ => ⟨S100000x16, .f32⟩
  | .hbm, ⟨116, _⟩ => ⟨S100000x16, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x16, .f32⟩
  | .hbm, ⟨122, _⟩ => ⟨S100000x16, .f32⟩
  | .hbm, ⟨123, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_v0 : Ref sig .tc := ⟨.hbm, 80, rfl⟩
abbrev main_call0_cst : Ref sig .tc := ⟨.hbm, 81, rfl⟩
abbrev main_call0_v1 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_v0 : Ref sig .tc := ⟨.hbm, 98, rfl⟩
abbrev main_call1_cst : Ref sig .tc := ⟨.hbm, 99, rfl⟩
abbrev main_call1_v1 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x100000_S100000x64_1_0 : S64x100000.Transposes [1, 0] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S_d0_1 : S100000x64.ReducesTo [0, 1] S_
  transposes_S100000x64_S64x100000_1_0 : S100000x64.Transposes [1, 0] S64x100000
  reducesTo_S64x64_S_d0_1 : S64x64.ReducesTo [0, 1] S_
  bcast_S_S64x64 : S_.BroadcastsInDim S64x64 (![] : Fin 0 → Fin S64x64.rank)
  concatenates_S100000x256_S100000x64_S100000x320_d1 : Shape.Concatenates [S100000x256, S100000x64] S100000x320 1
  transposes_S16x320_S320x16_1_0 : S16x320.Transposes [1, 0] S320x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  bcast_S100000x1_S100000x16_0_1 : S100000x1.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x256_S100000x256_1_0_0_1_n_n_wf : DotDims.WF S100000x128 S128x256 S100000x256 [1] [0] [0] [1] [] []
  scatter_S100000_S1600000x1_S1600000_n_0_0_1_wf : ScatterDims.WF S100000 S1600000x1 S1600000 [] [0] [0] 1
  dot_S64x100000_S100000x64_S64x64_1_0_0_1_n_n_wf : DotDims.WF S64x100000 S100000x64 S64x64 [1] [0] [0] [1] [] []
  dot_S100000x320_S320x16_S100000x16_1_0_0_1_n_n_wf : DotDims.WF S100000x320 S320x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S64x100000_S100000x64_S64x64_1_0_0_1_n_n : DotDims S64x100000 S100000x64 S64x64 where
  lhsContracting := [1]
  rhsContracting := [0]
  lhsNonContracting := [0]
  rhsNonContracting := [1]
  lhsBatch := []
  rhsBatch := []
  wf := dot_S64x100000_S100000x64_S64x64_1_0_0_1_n_n_wf
def dot_S100000x320_S320x16_S100000x16_1_0_0_1_n_n : DotDims S100000x320 S320x16 S100000x16 where
  lhsContracting := [1]
  rhsContracting := [0]
  lhsNonContracting := [0]
  rhsNonContracting := [1]
  lhsBatch := []
  rhsBatch := []
  wf := dot_S100000x320_S320x16_S100000x16_1_0_0_1_n_n_wf

class Facts : Prop extends Facts₀ where

variable [Facts]
-- ==== Proof.K.R0.lean ====
import proofs.«138361_j81398220194162_1_alg».proof.Proof.Gen.Kernel.Launch
import proofs.«138361_j81398220194162_1_alg».proof.Proof.Gen.Kernel.Skeleton
import proofs.«138361_j81398220194162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S5000x256 := Rect.unit (s := S5000x256) ![0, 0] S5000x256.size inb_S5000x256_S5000x256_0_0

def out0_3 (x0 : Vec F S5000x128 .f32) (x1 : Vec F S128x256 .f32) (x2 : Vec F S1x256 .f32) : Vec F S5000x256 .bf16 :=
  View.canon [⟨r0_3, k0_pay1 (View.ld x0 r0_0) (View.ld x1 r0_1) (View.ld x2 r0_2)⟩]

theorem cover0_3 (p0 : Vec F S5000x256 .bf16) (y : S5000x256.Idx) :
    ∃ pc ∈ ([⟨r0_3, p0⟩] : List (View.Piece (Elt F) S5000x256 .bf16)), y ∈ pc.1.set :=
  View.cover_of_tiled [⟨r0_3, p0⟩] S5000x256.size (by rfl) y

set_option maxHeartbeats 1000000 in
theorem sound_kernel0 (c : Dev nD) (E : Set ℕ) (i : grid0.Coords)
    (arg0 : Memref sig .tc .vmem S5000x128 .f32) (harg0 : arg0.IsWhole) (arg1 : Memref sig .tc .vmem S128x256 .f32) (harg1 : arg1.IsWhole)
    (arg2 : Memref sig .tc .vmem S1x256 .f32) (harg2 : arg2.IsWhole) (arg3 : Memref sig .tc .vmem S5000x256 .bf16) (harg3 : arg3.IsWhole)
    (x0 : Vec F S5000x128 .f32) (x1 : Vec F S128x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__mlpx_kernel i arg0 harg0 arg1 harg1 arg2 harg2 arg3 harg3) K := by
  simp only [cc0__mlpx_kernel_eq_skeleton]; unfold cc0__mlpx_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«138361_j81398220194162_1_alg».proof.Proof.Gen.Kernel.Launch
import proofs.«138361_j81398220194162_1_alg».proof.Proof.Gen.Kernel.Skeleton
import proofs.«138361_j81398220194162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x256 := Rect.unit (s := S5000x256) ![0, 0] S5000x256.size inb_S5000x256_S5000x256_0_0
abbrev r1_2 : Rect S320x16 := Rect.unit (s := S320x16) ![0, 0] S320x16.size inb_S320x16_S320x16_0_0
abbrev r1_3 : Rect S1x16 := Rect.unit (s := S1x16) ![0, 0] S1x16.size inb_S1x16_S1x16_0_0
abbrev r1_4 : Rect S5000x64 := Rect.unit (s := S5000x64) ![0, 0] S5000x64.size inb_S5000x64_S5000x64_0_0
abbrev r1_5 : Rect S5000x16 := Rect.unit (s := S5000x16) ![0, 0] S5000x16.size inb_S5000x16_S5000x16_0_0

def out1_4 (x0 : Vec F S5000x64 .f32) : Vec F S5000x64 .f32 :=
  View.canon [⟨r1_4, k1_pay1 (View.ld x0 r1_0)⟩]

def out1_5 (x0 : Vec F S5000x64 .f32) (x1 : Vec F S5000x256 .bf16) (x2 : Vec F S320x16 .f32) (x3 : Vec F S1x16 .f32) : Vec F S5000x16 .f32 :=
  View.canon [⟨r1_5, k1_pay2 (View.ld x0 r1_0) (View.ld x1 r1_1) (View.ld x2 r1_2) (View.ld x3 r1_3)⟩]

theorem cover1_4 (p0 : Vec F S5000x64 .f32) (y : S5000x64.Idx) :
    ∃ pc ∈ ([⟨r1_4, p0⟩] : List (View.Piece (Elt F) S5000x64 .f32)), y ∈ pc.1.set :=
  View.cover_of_tiled [⟨r1_4, p0⟩] S5000x64.size (by rfl) y

theorem cover1_5 (p0 : Vec F S5000x16 .f32) (y : S5000x16.Idx) :
    ∃ pc ∈ ([⟨r1_5, p0⟩] : List (View.Piece (Elt F) S5000x16 .f32)), y ∈ pc.1.set :=
  View.cover_of_tiled [⟨r1_5, p0⟩] S5000x16.size (by rfl) y

set_option maxHeartbeats 1000000 in
theorem sound_kernel1 (c : Dev nD) (E : Set ℕ) (i : grid1.Coords)
    (arg1 : Memref sig .tc .vmem S5000x64 .f32) (harg1 : arg1.IsWhole) (arg2 : Memref sig .tc .vmem S5000x256 .bf16) (harg2 : arg2.IsWhole)
    (arg3 : Memref sig .tc .vmem S320x16 .f32) (harg3 : arg3.IsWhole) (arg4 : Memref sig .tc .vmem S1x16 .f32) (harg4 : arg4.IsWhole)
    (arg5 : Memref sig .tc .vmem S5000x64 .f32) (harg5 : arg5.IsWhole) (arg6 : Memref sig .tc .vmem S5000x16 .f32) (harg6 : arg6.IsWhole)
    (x0 : Vec F S5000x64 .f32) (x1 : Vec F S5000x256 .bf16) (x2 : Vec F S320x16 .f32) (x3 : Vec F S1x16 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0)
            ∗ owns (c : Thread nD τ) arg6 fullShare (out1_5 x0 x1 x2 x3)) -∗ K ⟨⟩))
      ⊢ wp frame (wpE (defs₀ (F := F)) Variants.none c none) E
          (cc1__pump_final_kernel i arg1 harg1 arg2 harg2 arg3 harg3 arg4 harg4 arg5 harg5 arg6 harg6) K := by
  simp only [cc1__pump_final_kernel_eq_skeleton]; unfold cc1__pump_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  iexists _; isplitr
  swap; · iexact H5
  ipureintro
  try dsimp only
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Runs.lean ====
import proofs.«138361_j81398220194162_1_alg».proof.Proof.Gen.Kernel.Launch
import proofs.«138361_j81398220194162_1_alg».proof.Proof.Gen.Kernel.Skeleton
import proofs.«138361_j81398220194162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev VO2_3 : View sig .tc .vmem S1x1 .f32 := (Memref.whole cc2_stg3_0 : Memref sig .tc .vmem S1x1 .f32).view
abbrev VO2_4 : View sig .tc .vmem S1x1 .f32 := (Memref.whole cc2_stg4_0 : Memref sig .tc .vmem S1x1 .f32).view
abbrev VO2_5 : View sig .tc .vmem S64x64 .f32 := (Memref.whole cc2_stg5_0 : Memref sig .tc .vmem S64x64 .f32).view

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x64 .f32 := win2_5.stage (cfg2.slots t 5)
abbrev hs2_5 (t : Fin cfg2.N) : (ms2_5 t).IsWhole := hstage2_5 ((cfg2.slots t 5).cast nbuf2_5)

abbrev scM2_0 : Memref sig .tc .vmem S1x1 .f32 := Memref.whole cc2_scratch0
abbrev scM2_1 : Memref sig .tc .vmem S1x1 .f32 := Memref.whole cc2_scratch1
abbrev scM2_2 : Memref sig .tc .vmem S64x64 .f32 := Memref.whole cc2_scratch2
abbrev VS2_0 : View sig .tc .vmem S1x1 .f32 := scM2_0.view
abbrev VS2_1 : View sig .tc .vmem S1x1 .f32 := scM2_1.view
abbrev VS2_2 : View sig .tc .vmem S64x64 .f32 := scM2_2.view

abbrev anyAt (c : Dev nD) (b : Ref sig .tc) : sProp 𝕄 :=
  iprop(∃ f : Buf (Elt F) ((c : Thread nD τ).loc b), ((c : Thread nD τ).loc b) ↦{fullShare} f)

def rest2 (c : Dev nD) : sProp 𝕄 :=
  iprop(anyAt (F := F) c cc0_stg0_0 ∗ anyAt (F := F) c cc0_stg0_1 ∗ anyAt (F := F) c cc0_stg1_0 ∗ anyAt (F := F) c cc0_stg2_0 ∗ anyAt (F := F) c cc0_stg3_0 ∗ anyAt (F := F) c cc0_stg3_1
    ∗ anyAt (F := F) c cc1_stg0_0 ∗ anyAt (F := F) c cc1_stg0_1 ∗ anyAt (F := F) c cc1_stg1_0 ∗ anyAt (F := F) c cc1_stg1_1 ∗ anyAt (F := F) c cc1_stg2_0 ∗ anyAt (F := F) c cc1_stg3_0
    ∗ anyAt (F := F) c cc1_stg4_0 ∗ anyAt (F := F) c cc1_stg4_1 ∗ anyAt (F := F) c cc1_stg5_0 ∗ anyAt (F := F) c cc1_stg5_1)

theorem sep_assoc_eq2 (P Q R : sProp 𝕄) : iprop((P ∗ Q) ∗ R) = iprop(P ∗ Q ∗ R) :=
  BI.Entails.antisymm Idealize.SL.BI.sep_assoc Idealize.SL.BI.sep_assoc'

theorem PhiA2_eq (c : Dev nD) :
    (Pipeline.ΦA spec2 c : sProp 𝕄)
      = iprop(iprop(rest2 (F := F) c ∗ (∃ d, owns (c : Thread nD τ) scM2_0 fullShare d) ∗ (∃ d, owns (c : Thread nD τ) scM2_1 fullShare d)
          ∗ (∃ d, owns (c : Thread nD τ) scM2_2 fullShare d)) ∗ (∃ r, prngReg c r)) := by
  unfold Pipeline.ΦA rest2; rw [scopedRest2_eq]; simp only [scM2_0, scM2_1, scM2_2, owns_whole, sep_assoc_eq2]; rfl

section

variable (c : Dev nD) (i : grid2.Coords)
  (arg1 : Memref sig .tc .vmem S5000x64 .f32) (harg1 : arg1.IsWhole) (arg2 : Memref sig .tc .vmem S5000x64 .f32) (harg2 : arg2.IsWhole)
  (arg3 : Memref sig .tc .vmem S5000x1 .f32) (harg3 : arg3.IsWhole) (arg4 : Memref sig .tc .vmem S1x1 .f32) (harg4 : arg4.IsWhole)
  (arg5 : Memref sig .tc .vmem S1x1 .f32) (harg5 : arg5.IsWhole) (arg6 : Memref sig .tc .vmem S64x64 .f32) (harg6 : arg6.IsWhole)
  (arg7 : Memref sig .tc .vmem S1x1 .f32) (harg7 : arg7.IsWhole) (arg8 : Memref sig .tc .vmem S1x1 .f32) (harg8 : arg8.IsWhole)
  (arg9 : Memref sig .tc .vmem S64x64 .f32) (harg9 : arg9.IsWhole)

set_option maxHeartbeats 4000000 in
noncomputable def kernelRun2_A (hc0 : cond2_0 i) (hc1 : ¬cond2_1 i)
    (x0 : Vec F S5000x64 .f32) (x1 : Vec F S5000x64 .f32) (x2 : Vec F S5000x1 .f32) :
    Σ' (L3 : List (View.Piece (Elt F) S1x1 .f32)) (L4 : List (View.Piece (Elt F) S1x1 .f32)) (L5 : List (View.Piece (Elt F) S64x64 .f32)) (LS0 : List (View.Piece (Elt F) S1x1 .f32)) (LS1 : List (View.Piece (Elt F) S1x1 .f32)), { LS2 : List (View.Piece (Elt F) S64x64 .f32) //
      ∀ (xi3 : Vec F S1x1 .f32) (xi4 : Vec F S1x1 .f32) (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ owns (c : Thread nD τ) arg6 fullShare xi5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__pump_reduce_kernel i arg1 harg1 arg2 harg2 arg3 harg3 arg4 harg4 arg5 harg5 arg6 harg6 arg7 harg7 arg8 harg8 arg9 harg9) K } := by
  refine ⟨[], [], [], ?_, ?_, ?_, fun xi3 xi4 xi5 E K => ?run⟩
  case run =>
    simp only [cc2__pump_reduce_kernel_eq_skeleton]; unfold cc2__pump_reduce_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

set_option maxHeartbeats 4000000 in
noncomputable def kernelRun2_B (hc0 : ¬cond2_0 i) (hc1 : ¬cond2_1 i)
    (x0 : Vec F S5000x64 .f32) (x1 : Vec F S5000x64 .f32) (x2 : Vec F S5000x1 .f32) (xs0 : Vec F S1x1 .f32) (xs1 : Vec F S1x1 .f32) (xs2 : Vec F S64x64 .f32) :
    Σ' (L3 : List (View.Piece (Elt F) S1x1 .f32)) (L4 : List (View.Piece (Elt F) S1x1 .f32)) (L5 : List (View.Piece (Elt F) S64x64 .f32)) (LS0 : List (View.Piece (Elt F) S1x1 .f32)) (LS1 : List (View.Piece (Elt F) S1x1 .f32)), { LS2 : List (View.Piece (Elt F) S64x64 .f32) //
      ∀ (xi3 : Vec F S1x1 .f32) (xi4 : Vec F S1x1 .f32) (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ owns (c : Thread nD τ) arg6 fullShare xi5
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__pump_reduce_kernel i arg1 harg1 arg2 harg2 arg3 harg3 arg4 harg4 arg5 harg5 arg6 harg6 arg7 harg7 arg8 harg8 arg9 harg9) K } := by
  refine ⟨[], [], [], ?_, ?_, ?_, fun xi3 xi4 xi5 E K => ?run⟩
  case run =>
    simp only [cc2__pump_reduce_kernel_eq_skeleton]; unfold cc2__pump_reduce_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

set_option maxHeartbeats 4000000 in
noncomputable def kernelRun2_C (hc0 : ¬cond2_0 i) (hc1 : cond2_1 i)
    (x0 : Vec F S5000x64 .f32) (x1 : Vec F S5000x64 .f32) (x2 : Vec F S5000x1 .f32) (xs0 : Vec F S1x1 .f32) (xs1 : Vec F S1x1 .f32) (xs2 : Vec F S64x64 .f32) :
    Σ' (L3 : List (View.Piece (Elt F) S1x1 .f32)) (L4 : List (View.Piece (Elt F) S1x1 .f32)) (L5 : List (View.Piece (Elt F) S64x64 .f32)) (LS0 : List (View.Piece (Elt F) S1x1 .f32)) (LS1 : List (View.Piece (Elt F) S1x1 .f32)), { LS2 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__pump_reduce_kernel i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc2__pump_reduce_kernel_eq_skeleton]; unfold cc2__pump_reduce_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end

end Cert.Kernel.Hand

end
-- ==== Proof.K.R2.lean ====
import proofs.«138361_j81398220194162_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Two scalar totals and a Gram matrix: the three outputs, and likewise the three accumulators. -/
abbrev Acc2 (F : FTy → Type) [FloatOps F] : Type := Vec F S1x1 .f32 × Vec F S1x1 .f32 × Vec F S64x64 .f32

/-- The values a run's stores leave for the three outputs and for the three accumulators. -/
def outs6 {P : List (View.Piece (Elt F) S1x1 .f32) → List (View.Piece (Elt F) S1x1 .f32) → List (View.Piece (Elt F) S64x64 .f32) → List (View.Piece (Elt F) S1x1 .f32) → List (View.Piece (Elt F) S1x1 .f32) → List (View.Piece (Elt F) S64x64 .f32) → Prop}
    (r : Σ' L3 L4 L5 LS0 LS1, { LS2 // P L3 L4 L5 LS0 LS1 LS2 }) : Acc2 F × Acc2 F :=
  ((VO2_3.read (Elt F) (VO2_3.writes (Elt F) VO2_3.junk r.1), VO2_4.read (Elt F) (VO2_4.writes (Elt F) VO2_4.junk r.2.1), VO2_5.read (Elt F) (VO2_5.writes (Elt F) VO2_5.junk r.2.2.1)),
   (VS2_0.read (Elt F) (VS2_0.writes (Elt F) VS2_0.junk r.2.2.2.1), VS2_1.read (Elt F) (VS2_1.writes (Elt F) VS2_1.junk r.2.2.2.2.1), VS2_2.read (Elt F) (VS2_2.writes (Elt F) VS2_2.junk r.2.2.2.2.2.1)))

section
variable (c : Dev nD) (t : Fin cfg2.N)

/-- The three control cases at grid point `t`, over its input blocks and (after the first point) the accumulators' previous values `s`. -/
def runA (h0 : t.val % 20 = 0) (h1 : ¬t.val % 20 = 19) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t)
def runB (h0 : ¬t.val % 20 = 0) (h1 : ¬t.val % 20 = 19) (s : Acc2 F) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) s.1 s.2.1 s.2.2
def runC (h0 : ¬t.val % 20 = 0) (h1 : t.val % 20 = 19) (s : Acc2 F) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) s.1 s.2.1 s.2.2

end

/-- Outputs and accumulators after point `n`: the first point starts the three sums, each later point adds its block's share, the last also copies the sums out. -/
def outsAt2 (c : Dev nD) : (n : ℕ) → n < cfg2.N → Acc2 F × Acc2 F
  | 0, hn => outs6 (runA V c ⟨0, hn⟩ (Nat.zero_mod 20) (by show ¬(0 : ℕ) % 20 = 19; omega))
  | n + 1, hn =>
    if h0 : (n + 1) % 20 = 0 then outs6 (runA V c ⟨n + 1, hn⟩ h0 (by show ¬(n + 1) % 20 = 19; omega))
    else if h1 : (n + 1) % 20 = 19 then outs6 (runC V c ⟨n + 1, hn⟩ h0 h1 (outsAt2 c n (Nat.lt_of_succ_lt hn)).2)
    else outs6 (runB V c ⟨n + 1, hn⟩ h0 h1 (outsAt2 c n (Nat.lt_of_succ_lt hn)).2)

theorem outsAt2_A (c : Dev nD) (t : Fin cfg2.N) (h0 : t.val % 20 = 0) (h1 : ¬t.val % 20 = 19) :
    outsAt2 V c t.val t.isLt = outs6 (runA V c t h0 h1) := by
  obtain ⟨n, hn⟩ := t
  cases n with
  | zero => rfl
  | succ n => exact (dif_pos h0).trans rfl

theorem outsAt2_B (c : Dev nD) (t : Fin cfg2.N) (h0 : ¬t.val % 20 = 0) (h1 : ¬t.val % 20 = 19) :
    outsAt2 V c t.val t.isLt = outs6 (runB V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 20 = 0) (h1 : t.val % 20 = 19) :
    outsAt2 V c t.val t.isLt = outs6 (runC V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant between points: the accumulators hold `s`. -/
def accsAt (c : Dev nD) (s : Acc2 F) : sProp 𝕄 :=
  iprop(iprop(rest2 (F := F) c ∗ owns (c : Thread nD τ) scM2_0 fullShare s.1 ∗ owns (c : Thread nD τ) scM2_1 fullShare s.2.1 ∗ owns (c : Thread nD τ) scM2_2 fullShare s.2.2) ∗ (∃ r, prngReg c r))

def PhiS2 (c : Dev nD) : (n : ℕ) → n ≤ cfg2.N → sProp 𝕄
  | 0, _ => Pipeline.ΦA spec2 c
  | n + 1, hn => accsAt c (outsAt2 V c n hn).2

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = accsAt c (outsAt2 V c (n - 1) (by omega)).2 := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1.1
    | ⟨4, _⟩ => (outsAt2 V c t.val t.isLt).1.2.1
    | ⟨5, _⟩ => (outsAt2 V c t.val t.isLt).1.2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1.1 := by dsimp only [dat2]
theorem after2_4 (c : Dev nD) (t : Fin cfg2.N) : (dat2 V c).after 4 t = (outsAt2 V c t.val t.isLt).1.2.1 := by dsimp only [dat2]
theorem after2_5 (c : Dev nD) (t : Fin cfg2.N) : (dat2 V c).after 5 t = (outsAt2 V c t.val t.isLt).1.2.2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- One point of the grid: the accumulators go from the previous point's values to this point's; an output is written at the last point only. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = accsAt c (outsAt2 V c t.val t.isLt).2 from rfl, PhiS2_castSucc V c t]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 20 = 19
  · have h0 : ¬t.val % 20 = 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [show (dat2 V c).leavesExact 4 t = owns (c : Thread nD τ) (ms2_4 t) fullShare ((dat2 V c).after 4 t) from by
      unfold Dat.leavesExact; rw [liveAt2_4 t ((hcond2_1 t).mpr h1)], after2_4]
    rw [show (dat2 V c).leavesExact 5 t = owns (c : Thread nD τ) (ms2_5 t) fullShare ((dat2 V c).after 5 t) from by
      unfold Dat.leavesExact; rw [liveAt2_5 t ((hcond2_1 t).mpr h1)], after2_5]
    have hz : t.val ≠ 0 := by omega
    rw [outsAt2_C V c t h0 h1, PhiS2_pos V c _ _ hz]
    unfold accsAt outs6; dsimp only
    iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
    iapply ((runC V c t h0 h1 _).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, ⟨%e3, H3⟩, ⟨%e4, H4⟩, ⟨%e5, H5⟩, ⟨%es0, HS0⟩, ⟨%es1, HS1⟩, ⟨%es2, HS2⟩⟩
    isplitl [HR HS0 HS1 HS2 Hg]
    · isplitl [HR HS0 HS1 HS2]
      · isplitl [HR]; · iexact HR
        isplitl [HS0]
        · unfold owns; iexists _; isplitr
          swap; · iexact HS0
          ipureintro; exact View.read_writes_of_cover _ _ _ _ _ (View.cover_of_tiledL _ S1x1.size (by sl_kernel_rfl))
        isplitl [HS1]
        · unfold owns; iexists _; isplitr
          swap; · iexact HS1
          ipureintro; exact View.read_writes_of_cover _ _ _ _ _ (View.cover_of_tiledL _ S1x1.size (by sl_kernel_rfl))
        unfold owns; iexists _; isplitr
        swap; · iexact HS2
        ipureintro; exact View.read_writes_of_cover _ _ _ _ _ (View.cover_of_tiledL _ S64x64.size (by sl_kernel_rfl))
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (View.cover_of_tiledL _ S1x1.size (by sl_kernel_rfl))
    isplitl [H4]
    · unfold owns; iexists _; isplitr
      swap; · iexact H4
      ipureintro; exact View.read_writes_of_cover _ _ _ _ _ (View.cover_of_tiledL _ S1x1.size (by sl_kernel_rfl))
    unfold owns; iexists _; isplitr
    swap; · iexact H5
    ipureintro; exact View.read_writes_of_cover _ _ _ _ _ (View.cover_of_tiledL _ S64x64.size (by sl_kernel_rfl))
  · skip
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [Dat.leavesExact_idle (dat2 V c) 5 t (idleAt2_5 t (fun h => h1 ((hcond2_1 t).mp h))) (noFlush2_5 t (fun h => h1 ((hcond2_1 t).mp h)))]
    by_cases h0 : t.val % 20 = 0
    · have hz : t.val = 0 := by omega
      rw [outsAt2_A V c t h0 h1, PhiS2_zero V c _ _ hz, PhiA2_eq]
      unfold accsAt outs6; dsimp only
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (View.cover_of_tiledL _ S1x1.size (by sl_kernel_rfl))
          isplitl [HS1]
          · unfold owns; iexists _; isplitr
            swap; · iexact HS1
            ipureintro; exact View.read_writes_of_cover _ _ _ _ _ (View.cover_of_tiledL _ S1x1.size (by sl_kernel_rfl))
          unfold owns; iexists _; isplitr
          swap; · iexact HS2
          ipureintro; exact View.read_writes_of_cover _ _ _ _ _ (View.cover_of_tiledL _ S64x64.size (by sl_kernel_rfl))
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · have hz : t.val ≠ 0 := by omega
      rw [outsAt2_B V c t h0 h1, PhiS2_pos V c _ _ hz]
      unfold accsAt outs6; dsimp only
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((runB V c t h0 h1 _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (View.cover_of_tiledL _ S1x1.size (by sl_kernel_rfl))
          isplitl [HS1]
          · unfold owns; iexists _; isplitr
            swap; · iexact HS1
            ipureintro; exact View.read_writes_of_cover _ _ _ _ _ (View.cover_of_tiledL _ S1x1.size (by sl_kernel_rfl))
          unfold owns; iexists _; isplitr
          swap; · iexact HS2
          ipureintro; exact View.read_writes_of_cover _ _ _ _ _ (View.cover_of_tiledL _ S64x64.size (by sl_kernel_rfl))
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  unfold accsAt
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

end Cert.Kernel.Hand

end
-- ==== Proof.K.Run.lean ====
import proofs.«138361_j81398220194162_1_alg».proof.Proof.K.R0
import proofs.«138361_j81398220194162_1_alg».proof.Proof.K.R1
import proofs.«138361_j81398220194162_1_alg».proof.Proof.K.R2
import proofs.«138361_j81398220194162_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev U1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev U3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev U5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)
abbrev W10 : Dev nD → Valuation τ sig (Elt F) := fun c => StableHlo.after hostOps3_3 (W9 m ρ c)
abbrev W11 : Dev nD → Valuation τ sig (Elt F) := fun c => StableHlo.after hostOps3_4 (W10 m ρ c)

/-- An array that no host stretch writes and no later region has among its windows is, after the eleven items, as the launch found it. -/
theorem W11_kept (c : Dev nD) (b : Ref sig .tc)
    (hW : b ∉ hostOps3_4_W ∧ b ∉ hostOps3_3_W ∧ b ∉ hostOps3_2_W ∧ b ∉ hostOps3_1_W ∧ b ∉ hostOps3_W ∧ b ∉ hostOps2_W ∧ b ∉ hostOps1_W ∧ b ∉ hostOps0_W)
    (h2 : ∀ w, Pipeline.arrRef spec2 w ≠ b) (h1 : ∀ w, Pipeline.arrRef spec1 w ≠ b)
    (h0 : W2 m ρ c (Proc.devRef .tc b) = W1 m ρ c (Proc.devRef .tc b)) :
    W11 m ρ c (Proc.devRef .tc b) = m ((c : Thread nD τ).loc b) :=
  (StableHlo.after_of_writes_sub hostOps3_4 (W10 m ρ c) hostOps3_4_writes hW.1).trans <|
  (StableHlo.after_of_writes_sub hostOps3_3 (W9 m ρ c) hostOps3_3_writes hW.2.1).trans <|
  (StableHlo.after_of_writes_sub hostOps3_2 (W8 m ρ c) hostOps3_2_writes hW.2.2.1).trans <|
  (StableHlo.after_of_writes_sub hostOps3_1 (W7 m ρ c) hostOps3_1_writes hW.2.2.2.1).trans <|
  (StableHlo.after_of_writes_sub hostOps3 (W6 m ρ c) hostOps3_writes hW.2.2.2.2.1).trans <|
  (W6_of_ne m ρ c b h2).trans <| (StableHlo.after_of_writes_sub hostOps2 (W4 m ρ c) hostOps2_writes hW.2.2.2.2.2.1).trans <|
  (W4_of_ne m ρ c b h1).trans <| (StableHlo.after_of_writes_sub hostOps1 (W2 m ρ c) hostOps1_writes hW.2.2.2.2.2.2.1).trans <|
  h0.trans <| (StableHlo.after_of_writes_sub hostOps0 (W0 m ρ c) hostOps0_writes hW.2.2.2.2.2.2.2).trans rfl

def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : Pipeline.ΦA spec2 c ⊢ (pdats m ρ 2 c).Φ 0 := hin2 (U5 m ρ) c
    iintro ⟨Hp, -, Hr⟩
    iapply h2
    unfold Pipeline.ΦA
    isplitl [Hr]; · iexact Hr
    iexact Hp
  hout c := by
    have h2 : (pdats m ρ 2 c).Φ (Fin.last _) ⊢ Pipeline.ΦA spec2 c := hout2 (U5 m ρ) c
    rw [Pipeline.ownSems0_none]
    iintro HPhi
    ihave HA := h2 $$ HPhi
    unfold Pipeline.ΦA
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev hsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .host (hseg hostOps3_3 hostOps3_3_sub hostOps3_3_fresh (W9 m ρ)),
    .host (hseg hostOps3_4 hostOps3_4_sub hostOps3_4_fresh (W10 m ρ)) ]

theorem main_run (c : Dev nD) : main (F := F) c = Pipeline.Seg.run (hsegs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (W11_kept m ρ c main_arg0 (by decide) (by decide) (by decide) (W2_in m ρ c 0 rfl)),
    (h c _ (mem_uc main_arg1 (by decide))).trans (W11_kept m ρ c main_arg1 (by decide) (by decide) (by decide) (W2_of_ne m ρ c main_arg1 (by decide))),
    (h c _ (mem_uc main_arg2 (by decide))).trans (W11_kept m ρ c main_arg2 (by decide) (by decide) (by decide) (W2_of_ne m ρ c main_arg2 (by decide))),
    (h c _ (mem_uc main_arg3 (by decide))).trans (W11_kept m ρ c main_arg3 (by decide) (by decide) (by decide) (W2_of_ne m ρ c main_arg3 (by decide))),
    (h c _ (mem_uc main_arg4 (by decide))).trans (W11_kept m ρ c main_arg4 (by decide) (by decide) (by decide) (W2_of_ne m ρ c main_arg4 (by decide))),
    (h c _ (mem_uc main_arg5 (by decide))).trans (W11_kept m ρ c main_arg5 (by decide) (by decide) (by decide) (W2_of_ne m ρ c main_arg5 (by decide))),
    (h c _ (mem_uc main_arg6 (by decide))).trans (W11_kept m ρ c main_arg6 (by decide) (by decide) (by decide) (W2_of_ne m ρ c main_arg6 (by decide))),
    (h c _ (mem_uc main_arg7 (by decide))).trans (W11_kept m ρ c main_arg7 (by decide) (by decide) (by decide) (W2_of_ne m ρ c main_arg7 (by decide)))⟩) (run_all m ρ)

end Cert.Kernel.Hand

end
-- ==== Proof.KI.R0.lean ====
import proofs.«138361_j81398220194162_1_alg».proof.Proof.Gen.KernelIdeal.Launch
import proofs.«138361_j81398220194162_1_alg».proof.Proof.Gen.KernelIdeal.Skeleton
import proofs.«138361_j81398220194162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S5000x256 := Rect.unit (s := S5000x256) ![0, 0] S5000x256.size inb_S5000x256_S5000x256_0_0

def out0_3 (x0 : Vec F S5000x128 .f32) (x1 : Vec F S128x256 .f32) (x2 : Vec F S1x256 .f32) : Vec F S5000x256 .bf16 :=
  View.canon [⟨r0_3, k0_pay1 (View.ld x0 r0_0) (View.ld x1 r0_1) (View.ld x2 r0_2)⟩]

theorem cover0_3 (p0 : Vec F S5000x256 .bf16) (y : S5000x256.Idx) :
    ∃ pc ∈ ([⟨r0_3, p0⟩] : List (View.Piece (Elt F) S5000x256 .bf16)), y ∈ pc.1.set :=
  View.cover_of_tiled [⟨r0_3, p0⟩] S5000x256.size (by rfl) y

set_option maxHeartbeats 1000000 in
theorem sound_kernel0 (c : Dev nD) (E : Set ℕ) (i : grid0.Coords)
    (arg0 : Memref sig .tc .vmem S5000x128 .f32) (harg0 : arg0.IsWhole) (arg1 : Memref sig .tc .vmem S128x256 .f32) (harg1 : arg1.IsWhole)
    (arg2 : Memref sig .tc .vmem S1x256 .f32) (harg2 : arg2.IsWhole) (arg3 : Memref sig .tc .vmem S5000x256 .bf16) (harg3 : arg3.IsWhole)
    (x0 : Vec F S5000x128 .f32) (x1 : Vec F S128x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__mlpx_kernel i arg0 harg0 arg1 harg1 arg2 harg2 arg3 harg3) K := by
  simp only [cc0__mlpx_kernel_eq_skeleton]; unfold cc0__mlpx_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«138361_j81398220194162_1_alg».proof.Proof.Gen.KernelIdeal.Launch
import proofs.«138361_j81398220194162_1_alg».proof.Proof.Gen.KernelIdeal.Skeleton
import proofs.«138361_j81398220194162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x256 := Rect.unit (s := S5000x256) ![0, 0] S5000x256.size inb_S5000x256_S5000x256_0_0
abbrev r1_2 : Rect S320x16 := Rect.unit (s := S320x16) ![0, 0] S320x16.size inb_S320x16_S320x16_0_0
abbrev r1_3 : Rect S1x16 := Rect.unit (s := S1x16) ![0, 0] S1x16.size inb_S1x16_S1x16_0_0
abbrev r1_4 : Rect S5000x64 := Rect.unit (s := S5000x64) ![0, 0] S5000x64.size inb_S5000x64_S5000x64_0_0
abbrev r1_5 : Rect S5000x16 := Rect.unit (s := S5000x16) ![0, 0] S5000x16.size inb_S5000x16_S5000x16_0_0

def out1_4 (x0 : Vec F S5000x64 .f32) : Vec F S5000x64 .f32 :=
  View.canon [⟨r1_4, k1_pay1 (View.ld x0 r1_0)⟩]

def out1_5 (x0 : Vec F S5000x64 .f32) (x1 : Vec F S5000x256 .bf16) (x2 : Vec F S320x16 .f32) (x3 : Vec F S1x16 .f32) : Vec F S5000x16 .f32 :=
  View.canon [⟨r1_5, k1_pay2 (View.ld x0 r1_0) (View.ld x1 r1_1) (View.ld x2 r1_2) (View.ld x3 r1_3)⟩]

theorem cover1_4 (p0 : Vec F S5000x64 .f32) (y : S5000x64.Idx) :
    ∃ pc ∈ ([⟨r1_4, p0⟩] : List (View.Piece (Elt F) S5000x64 .f32)), y ∈ pc.1.set :=
  View.cover_of_tiled [⟨r1_4, p0⟩] S5000x64.size (by rfl) y

theorem cover1_5 (p0 : Vec F S5000x16 .f32) (y : S5000x16.Idx) :
    ∃ pc ∈ ([⟨r1_5, p0⟩] : List (View.Piece (Elt F) S5000x16 .f32)), y ∈ pc.1.set :=
  View.cover_of_tiled [⟨r1_5, p0⟩] S5000x16.size (by rfl) y

set_option maxHeartbeats 1000000 in
theorem sound_kernel1 (c : Dev nD) (E : Set ℕ) (i : grid1.Coords)
    (arg1 : Memref sig .tc .vmem S5000x64 .f32) (harg1 : arg1.IsWhole) (arg2 : Memref sig .tc .vmem S5000x256 .bf16) (harg2 : arg2.IsWhole)
    (arg3 : Memref sig .tc .vmem S320x16 .f32) (harg3 : arg3.IsWhole) (arg4 : Memref sig .tc .vmem S1x16 .f32) (harg4 : arg4.IsWhole)
    (arg5 : Memref sig .tc .vmem S5000x64 .f32) (harg5 : arg5.IsWhole) (arg6 : Memref sig .tc .vmem S5000x16 .f32) (harg6 : arg6.IsWhole)
    (x0 : Vec F S5000x64 .f32) (x1 : Vec F S5000x256 .bf16) (x2 : Vec F S320x16 .f32) (x3 : Vec F S1x16 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0)
            ∗ owns (c : Thread nD τ) arg6 fullShare (out1_5 x0 x1 x2 x3)) -∗ K ⟨⟩))
      ⊢ wp frame (wpE (defs₀ (F := F)) Variants.none c none) E
          (cc1__pump_final_kernel i arg1 harg1 arg2 harg2 arg3 harg3 arg4 harg4 arg5 harg5 arg6 harg6) K := by
  simp only [cc1__pump_final_kernel_eq_skeleton]; unfold cc1__pump_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  iexists _; isplitr
  swap; · iexact H5
  ipureintro
  try dsimp only
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
import proofs.«138361_j81398220194162_1_alg».proof.Proof.Gen.KernelIdeal.Launch
import proofs.«138361_j81398220194162_1_alg».proof.Proof.Gen.KernelIdeal.Skeleton
import proofs.«138361_j81398220194162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev VO2_3 : View sig .tc .vmem S1x1 .f32 := (Memref.whole cc2_stg3_0 : Memref sig .tc .vmem S1x1 .f32).view
abbrev VO2_4 : View sig .tc .vmem S1x1 .f32 := (Memref.whole cc2_stg4_0 : Memref sig .tc .vmem S1x1 .f32).view
abbrev VO2_5 : View sig .tc .vmem S64x64 .f32 := (Memref.whole cc2_stg5_0 : Memref sig .tc .vmem S64x64 .f32).view

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x64 .f32 := win2_5.stage (cfg2.slots t 5)
abbrev hs2_5 (t : Fin cfg2.N) : (ms2_5 t).IsWhole := hstage2_5 ((cfg2.slots t 5).cast nbuf2_5)

abbrev scM2_0 : Memref sig .tc .vmem S1x1 .f32 := Memref.whole cc2_scratch0
abbrev scM2_1 : Memref sig .tc .vmem S1x1 .f32 := Memref.whole cc2_scratch1
abbrev scM2_2 : Memref sig .tc .vmem S64x64 .f32 := Memref.whole cc2_scratch2
abbrev VS2_0 : View sig .tc .vmem S1x1 .f32 := scM2_0.view
abbrev VS2_1 : View sig .tc .vmem S1x1 .f32 := scM2_1.view
abbrev VS2_2 : View sig .tc .vmem S64x64 .f32 := scM2_2.view

abbrev anyAt (c : Dev nD) (b : Ref sig .tc) : sProp 𝕄 :=
  iprop(∃ f : Buf (Elt F) ((c : Thread nD τ).loc b), ((c : Thread nD τ).loc b) ↦{fullShare} f)

def rest2 (c : Dev nD) : sProp 𝕄 :=
  iprop(anyAt (F := F) c cc0_stg0_0 ∗ anyAt (F := F) c cc0_stg0_1 ∗ anyAt (F := F) c cc0_stg1_0 ∗ anyAt (F := F) c cc0_stg2_0 ∗ anyAt (F := F) c cc0_stg3_0 ∗ anyAt (F := F) c cc0_stg3_1
    ∗ anyAt (F := F) c cc1_stg0_0 ∗ anyAt (F := F) c cc1_stg0_1 ∗ anyAt (F := F) c cc1_stg1_0 ∗ anyAt (F := F) c cc1_stg1_1 ∗ anyAt (F := F) c cc1_stg2_0 ∗ anyAt (F := F) c cc1_stg3_0
    ∗ anyAt (F := F) c cc1_stg4_0 ∗ anyAt (F := F) c cc1_stg4_1 ∗ anyAt (F := F) c cc1_stg5_0 ∗ anyAt (F := F) c cc1_stg5_1)

theorem sep_assoc_eq2 (P Q R : sProp 𝕄) : iprop((P ∗ Q) ∗ R) = iprop(P ∗ Q ∗ R) :=
  BI.Entails.antisymm Idealize.SL.BI.sep_assoc Idealize.SL.BI.sep_assoc'

theorem PhiA2_eq (c : Dev nD) :
    (Pipeline.ΦA spec2 c : sProp 𝕄)
      = iprop(iprop(rest2 (F := F) c ∗ (∃ d, owns (c : Thread nD τ) scM2_0 fullShare d) ∗ (∃ d, owns (c : Thread nD τ) scM2_1 fullShare d)
          ∗ (∃ d, owns (c : Thread nD τ) scM2_2 fullShare d)) ∗ (∃ r, prngReg c r)) := by
  unfold Pipeline.ΦA rest2; rw [scopedRest2_eq]; simp only [scM2_0, scM2_1, scM2_2, owns_whole, sep_assoc_eq2]; rfl

section

variable (c : Dev nD) (i : grid2.Coords)
  (arg1 : Memref sig .tc .vmem S5000x64 .f32) (harg1 : arg1.IsWhole) (arg2 : Memref sig .tc .vmem S5000x64 .f32) (harg2 : arg2.IsWhole)
  (arg3 : Memref sig .tc .vmem S5000x1 .f32) (harg3 : arg3.IsWhole) (arg4 : Memref sig .tc .vmem S1x1 .f32) (harg4 : arg4.IsWhole)
  (arg5 : Memref sig .tc .vmem S1x1 .f32) (harg5 : arg5.IsWhole) (arg6 : Memref sig .tc .vmem S64x64 .f32) (harg6 : arg6.IsWhole)
  (arg7 : Memref sig .tc .vmem S1x1 .f32) (harg7 : arg7.IsWhole) (arg8 : Memref sig .tc .vmem S1x1 .f32) (harg8 : arg8.IsWhole)
  (arg9 : Memref sig .tc .vmem S64x64 .f32) (harg9 : arg9.IsWhole)

set_option maxHeartbeats 4000000 in
noncomputable def kernelRun2_A (hc0 : cond2_0 i) (hc1 : ¬cond2_1 i)
    (x0 : Vec F S5000x64 .f32) (x1 : Vec F S5000x64 .f32) (x2 : Vec F S5000x1 .f32) :
    Σ' (L3 : List (View.Piece (Elt F) S1x1 .f32)) (L4 : List (View.Piece (Elt F) S1x1 .f32)) (L5 : List (View.Piece (Elt F) S64x64 .f32)) (LS0 : List (View.Piece (Elt F) S1x1 .f32)) (LS1 : List (View.Piece (Elt F) S1x1 .f32)), { LS2 : List (View.Piece (Elt F) S64x64 .f32) //
      ∀ (xi3 : Vec F S1x1 .f32) (xi4 : Vec F S1x1 .f32) (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ owns (c : Thread nD τ) arg6 fullShare xi5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__pump_reduce_kernel i arg1 harg1 arg2 harg2 arg3 harg3 arg4 harg4 arg5 harg5 arg6 harg6 arg7 harg7 arg8 harg8 arg9 harg9) K } := by
  refine ⟨[], [], [], ?_, ?_, ?_, fun xi3 xi4 xi5 E K => ?run⟩
  case run =>
    simp only [cc2__pump_reduce_kernel_eq_skeleton]; unfold cc2__pump_reduce_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

set_option maxHeartbeats 4000000 in
noncomputable def kernelRun2_B (hc0 : ¬cond2_0 i) (hc1 : ¬cond2_1 i)
    (x0 : Vec F S5000x64 .f32) (x1 : Vec F S5000x64 .f32) (x2 : Vec F S5000x1 .f32) (xs0 : Vec F S1x1 .f32) (xs1 : Vec F S1x1 .f32) (xs2 : Vec F S64x64 .f32) :
    Σ' (L3 : List (View.Piece (Elt F) S1x1 .f32)) (L4 : List (View.Piece (Elt F) S1x1 .f32)) (L5 : List (View.Piece (Elt F) S64x64 .f32)) (LS0 : List (View.Piece (Elt F) S1x1 .f32)) (LS1 : List (View.Piece (Elt F) S1x1 .f32)), { LS2 : List (View.Piece (Elt F) S64x64 .f32) //
      ∀ (xi3 : Vec F S1x1 .f32) (xi4 : Vec F S1x1 .f32) (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ owns (c : Thread nD τ) arg6 fullShare xi5
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__pump_reduce_kernel i arg1 harg1 arg2 harg2 arg3 harg3 arg4 harg4 arg5 harg5 arg6 harg6 arg7 harg7 arg8 harg8 arg9 harg9) K } := by
  refine ⟨[], [], [], ?_, ?_, ?_, fun xi3 xi4 xi5 E K => ?run⟩
  case run =>
    simp only [cc2__pump_reduce_kernel_eq_skeleton]; unfold cc2__pump_reduce_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

set_option maxHeartbeats 4000000 in
noncomputable def kernelRun2_C (hc0 : ¬cond2_0 i) (hc1 : cond2_1 i)
    (x0 : Vec F S5000x64 .f32) (x1 : Vec F S5000x64 .f32) (x2 : Vec F S5000x1 .f32) (xs0 : Vec F S1x1 .f32) (xs1 : Vec F S1x1 .f32) (xs2 : Vec F S64x64 .f32) :
    Σ' (L3 : List (View.Piece (Elt F) S1x1 .f32)) (L4 : List (View.Piece (Elt F) S1x1 .f32)) (L5 : List (View.Piece (Elt F) S64x64 .f32)) (LS0 : List (View.Piece (Elt F) S1x1 .f32)) (LS1 : List (View.Piece (Elt F) S1x1 .f32)), { LS2 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__pump_reduce_kernel i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc2__pump_reduce_kernel_eq_skeleton]; unfold cc2__pump_reduce_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end

end Cert.KernelIdeal.Hand

end
-- ==== Proof.KI.R2.lean ====
import proofs.«138361_j81398220194162_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Two scalar totals and a Gram matrix: the three outputs, and likewise the three accumulators. -/
abbrev Acc2 (F : FTy → Type) [FloatOps F] : Type := Vec F S1x1 .f32 × Vec F S1x1 .f32 × Vec F S64x64 .f32

/-- The values a run's stores leave for the three outputs and for the three accumulators. -/
def outs6 {P : List (View.Piece (Elt F) S1x1 .f32) → List (View.Piece (Elt F) S1x1 .f32) → List (View.Piece (Elt F) S64x64 .f32) → List (View.Piece (Elt F) S1x1 .f32) → List (View.Piece (Elt F) S1x1 .f32) → List (View.Piece (Elt F) S64x64 .f32) → Prop}
    (r : Σ' L3 L4 L5 LS0 LS1, { LS2 // P L3 L4 L5 LS0 LS1 LS2 }) : Acc2 F × Acc2 F :=
  ((VO2_3.read (Elt F) (VO2_3.writes (Elt F) VO2_3.junk r.1), VO2_4.read (Elt F) (VO2_4.writes (Elt F) VO2_4.junk r.2.1), VO2_5.read (Elt F) (VO2_5.writes (Elt F) VO2_5.junk r.2.2.1)),
   (VS2_0.read (Elt F) (VS2_0.writes (Elt F) VS2_0.junk r.2.2.2.1), VS2_1.read (Elt F) (VS2_1.writes (Elt F) VS2_1.junk r.2.2.2.2.1), VS2_2.read (Elt F) (VS2_2.writes (Elt F) VS2_2.junk r.2.2.2.2.2.1)))

section
variable (c : Dev nD) (t : Fin cfg2.N)

/-- The three control cases at grid point `t`, over its input blocks and (after the first point) the accumulators' previous values `s`. -/
def runA (h0 : t.val % 20 = 0) (h1 : ¬t.val % 20 = 19) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t)
def runB (h0 : ¬t.val % 20 = 0) (h1 : ¬t.val % 20 = 19) (s : Acc2 F) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) s.1 s.2.1 s.2.2
def runC (h0 : ¬t.val % 20 = 0) (h1 : t.val % 20 = 19) (s : Acc2 F) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) s.1 s.2.1 s.2.2

end

/-- Outputs and accumulators after point `n`: the first point starts the three sums, each later point adds its block's share, the last also copies the sums out. -/
def outsAt2 (c : Dev nD) : (n : ℕ) → n < cfg2.N → Acc2 F × Acc2 F
  | 0, hn => outs6 (runA V c ⟨0, hn⟩ (Nat.zero_mod 20) (by show ¬(0 : ℕ) % 20 = 19; omega))
  | n + 1, hn =>
    if h0 : (n + 1) % 20 = 0 then outs6 (runA V c ⟨n + 1, hn⟩ h0 (by show ¬(n + 1) % 20 = 19; omega))
    else if h1 : (n + 1) % 20 = 19 then outs6 (runC V c ⟨n + 1, hn⟩ h0 h1 (outsAt2 c n (Nat.lt_of_succ_lt hn)).2)
    else outs6 (runB V c ⟨n + 1, hn⟩ h0 h1 (outsAt2 c n (Nat.lt_of_succ_lt hn)).2)

theorem outsAt2_A (c : Dev nD) (t : Fin cfg2.N) (h0 : t.val % 20 = 0) (h1 : ¬t.val % 20 = 19) :
    outsAt2 V c t.val t.isLt = outs6 (runA V c t h0 h1) := by
  obtain ⟨n, hn⟩ := t
  cases n with
  | zero => rfl
  | succ n => exact (dif_pos h0).trans rfl

theorem outsAt2_B (c : Dev nD) (t : Fin cfg2.N) (h0 : ¬t.val % 20 = 0) (h1 : ¬t.val % 20 = 19) :
    outsAt2 V c t.val t.isLt = outs6 (runB V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 20 = 0) (h1 : t.val % 20 = 19) :
    outsAt2 V c t.val t.isLt = outs6 (runC V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant between points: the accumulators hold `s`. -/
def accsAt (c : Dev nD) (s : Acc2 F) : sProp 𝕄 :=
  iprop(iprop(rest2 (F := F) c ∗ owns (c : Thread nD τ) scM2_0 fullShare s.1 ∗ owns (c : Thread nD τ) scM2_1 fullShare s.2.1 ∗ owns (c : Thread nD τ) scM2_2 fullShare s.2.2) ∗ (∃ r, prngReg c r))

def PhiS2 (c : Dev nD) : (n : ℕ) → n ≤ cfg2.N → sProp 𝕄
  | 0, _ => Pipeline.ΦA spec2 c
  | n + 1, hn => accsAt c (outsAt2 V c n hn).2

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = accsAt c (outsAt2 V c (n - 1) (by omega)).2 := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1.1
    | ⟨4, _⟩ => (outsAt2 V c t.val t.isLt).1.2.1
    | ⟨5, _⟩ => (outsAt2 V c t.val t.isLt).1.2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1.1 := by dsimp only [dat2]
theorem after2_4 (c : Dev nD) (t : Fin cfg2.N) : (dat2 V c).after 4 t = (outsAt2 V c t.val t.isLt).1.2.1 := by dsimp only [dat2]
theorem after2_5 (c : Dev nD) (t : Fin cfg2.N) : (dat2 V c).after 5 t = (outsAt2 V c t.val t.isLt).1.2.2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- One point of the grid: the accumulators go from the previous point's values to this point's; an output is written at the last point only. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = accsAt c (outsAt2 V c t.val t.isLt).2 from rfl, PhiS2_castSucc V c t]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 20 = 19
  · have h0 : ¬t.val % 20 = 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [show (dat2 V c).leavesExact 4 t = owns (c : Thread nD τ) (ms2_4 t) fullShare ((dat2 V c).after 4 t) from by
      unfold Dat.leavesExact; rw [liveAt2_4 t ((hcond2_1 t).mpr h1)], after2_4]
    rw [show (dat2 V c).leavesExact 5 t = owns (c : Thread nD τ) (ms2_5 t) fullShare ((dat2 V c).after 5 t) from by
      unfold Dat.leavesExact; rw [liveAt2_5 t ((hcond2_1 t).mpr h1)], after2_5]
    have hz : t.val ≠ 0 := by omega
    rw [outsAt2_C V c t h0 h1, PhiS2_pos V c _ _ hz]
    unfold accsAt outs6; dsimp only
    iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
    iapply ((runC V c t h0 h1 _).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, ⟨%e3, H3⟩, ⟨%e4, H4⟩, ⟨%e5, H5⟩, ⟨%es0, HS0⟩, ⟨%es1, HS1⟩, ⟨%es2, HS2⟩⟩
    isplitl [HR HS0 HS1 HS2 Hg]
    · isplitl [HR HS0 HS1 HS2]
      · isplitl [HR]; · iexact HR
        isplitl [HS0]
        · unfold owns; iexists _; isplitr
          swap; · iexact HS0
          ipureintro; exact View.read_writes_of_cover _ _ _ _ _ (View.cover_of_tiledL _ S1x1.size (by sl_kernel_rfl))
        isplitl [HS1]
        · unfold owns; iexists _; isplitr
          swap; · iexact HS1
          ipureintro; exact View.read_writes_of_cover _ _ _ _ _ (View.cover_of_tiledL _ S1x1.size (by sl_kernel_rfl))
        unfold owns; iexists _; isplitr
        swap; · iexact HS2
        ipureintro; exact View.read_writes_of_cover _ _ _ _ _ (View.cover_of_tiledL _ S64x64.size (by sl_kernel_rfl))
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (View.cover_of_tiledL _ S1x1.size (by sl_kernel_rfl))
    isplitl [H4]
    · unfold owns; iexists _; isplitr
      swap; · iexact H4
      ipureintro; exact View.read_writes_of_cover _ _ _ _ _ (View.cover_of_tiledL _ S1x1.size (by sl_kernel_rfl))
    unfold owns; iexists _; isplitr
    swap; · iexact H5
    ipureintro; exact View.read_writes_of_cover _ _ _ _ _ (View.cover_of_tiledL _ S64x64.size (by sl_kernel_rfl))
  · skip
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [Dat.leavesExact_idle (dat2 V c) 5 t (idleAt2_5 t (fun h => h1 ((hcond2_1 t).mp h))) (noFlush2_5 t (fun h => h1 ((hcond2_1 t).mp h)))]
    by_cases h0 : t.val % 20 = 0
    · have hz : t.val = 0 := by omega
      rw [outsAt2_A V c t h0 h1, PhiS2_zero V c _ _ hz, PhiA2_eq]
      unfold accsAt outs6; dsimp only
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (View.cover_of_tiledL _ S1x1.size (by sl_kernel_rfl))
          isplitl [HS1]
          · unfold owns; iexists _; isplitr
            swap; · iexact HS1
            ipureintro; exact View.read_writes_of_cover _ _ _ _ _ (View.cover_of_tiledL _ S1x1.size (by sl_kernel_rfl))
          unfold owns; iexists _; isplitr
          swap; · iexact HS2
          ipureintro; exact View.read_writes_of_cover _ _ _ _ _ (View.cover_of_tiledL _ S64x64.size (by sl_kernel_rfl))
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · have hz : t.val ≠ 0 := by omega
      rw [outsAt2_B V c t h0 h1, PhiS2_pos V c _ _ hz]
      unfold accsAt outs6; dsimp only
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((runB V c t h0 h1 _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro; exact View.read_writes_of_cover _ _ _ _ _ (View.cover_of_tiledL _ S1x1.size (by sl_kernel_rfl))
          isplitl [HS1]
          · unfold owns; iexists _; isplitr
            swap; · iexact HS1
            ipureintro; exact View.read_writes_of_cover _ _ _ _ _ (View.cover_of_tiledL _ S1x1.size (by sl_kernel_rfl))
          unfold owns; iexists _; isplitr
          swap; · iexact HS2
          ipureintro; exact View.read_writes_of_cover _ _ _ _ _ (View.cover_of_tiledL _ S64x64.size (by sl_kernel_rfl))
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  unfold accsAt
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

end Cert.KernelIdeal.Hand

end
-- ==== Proof.KI.Run.lean ====
import proofs.«138361_j81398220194162_1_alg».proof.Proof.KI.R0
import proofs.«138361_j81398220194162_1_alg».proof.Proof.KI.R1
import proofs.«138361_j81398220194162_1_alg».proof.Proof.KI.R2
import proofs.«138361_j81398220194162_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev U1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev U3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev U5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
abbrev W8 : Dev nD → Valuation τ sig (Elt F) := fun c => StableHlo.after hostOps3_1 (W7 m ρ c)
abbrev W9 : Dev nD → Valuation τ sig (Elt F) := fun c => StableHlo.after hostOps3_2 (W8 m ρ c)
abbrev W10 : Dev nD → Valuation τ sig (Elt F) := fun c => StableHlo.after hostOps3_3 (W9 m ρ c)
abbrev W11 : Dev nD → Valuation τ sig (Elt F) := fun c => StableHlo.after hostOps3_4 (W10 m ρ c)

/-- An array that no host stretch writes and no later region has among its windows is, after the eleven items, as the launch found it. -/
theorem W11_kept (c : Dev nD) (b : Ref sig .tc)
    (hW : b ∉ hostOps3_4_W ∧ b ∉ hostOps3_3_W ∧ b ∉ hostOps3_2_W ∧ b ∉ hostOps3_1_W ∧ b ∉ hostOps3_W ∧ b ∉ hostOps2_W ∧ b ∉ hostOps1_W ∧ b ∉ hostOps0_W)
    (h2 : ∀ w, Pipeline.arrRef spec2 w ≠ b) (h1 : ∀ w, Pipeline.arrRef spec1 w ≠ b)
    (h0 : W2 m ρ c (Proc.devRef .tc b) = W1 m ρ c (Proc.devRef .tc b)) :
    W11 m ρ c (Proc.devRef .tc b) = m ((c : Thread nD τ).loc b) :=
  (StableHlo.after_of_writes_sub hostOps3_4 (W10 m ρ c) hostOps3_4_writes hW.1).trans <|
  (StableHlo.after_of_writes_sub hostOps3_3 (W9 m ρ c) hostOps3_3_writes hW.2.1).trans <|
  (StableHlo.after_of_writes_sub hostOps3_2 (W8 m ρ c) hostOps3_2_writes hW.2.2.1).trans <|
  (StableHlo.after_of_writes_sub hostOps3_1 (W7 m ρ c) hostOps3_1_writes hW.2.2.2.1).trans <|
  (StableHlo.after_of_writes_sub hostOps3 (W6 m ρ c) hostOps3_writes hW.2.2.2.2.1).trans <|
  (W6_of_ne m ρ c b h2).trans <| (StableHlo.after_of_writes_sub hostOps2 (W4 m ρ c) hostOps2_writes hW.2.2.2.2.2.1).trans <|
  (W4_of_ne m ρ c b h1).trans <| (StableHlo.after_of_writes_sub hostOps1 (W2 m ρ c) hostOps1_writes hW.2.2.2.2.2.2.1).trans <|
  h0.trans <| (StableHlo.after_of_writes_sub hostOps0 (W0 m ρ c) hostOps0_writes hW.2.2.2.2.2.2.2).trans rfl

def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : Pipeline.ΦA spec2 c ⊢ (pdats m ρ 2 c).Φ 0 := hin2 (U5 m ρ) c
    iintro ⟨Hp, -, Hr⟩
    iapply h2
    unfold Pipeline.ΦA
    isplitl [Hr]; · iexact Hr
    iexact Hp
  hout c := by
    have h2 : (pdats m ρ 2 c).Φ (Fin.last _) ⊢ Pipeline.ΦA spec2 c := hout2 (U5 m ρ) c
    rw [Pipeline.ownSems0_none]
    iintro HPhi
    ihave HA := h2 $$ HPhi
    unfold Pipeline.ΦA
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev hsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .host (hseg hostOps3_3 hostOps3_3_sub hostOps3_3_fresh (W9 m ρ)),
    .host (hseg hostOps3_4 hostOps3_4_sub hostOps3_4_fresh (W10 m ρ)) ]

theorem main_run (c : Dev nD) : main (F := F) c = Pipeline.Seg.run (hsegs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (W11_kept m ρ c main_arg0 (by decide) (by decide) (by decide) (W2_in m ρ c 0 rfl)),
    (h c _ (mem_uc main_arg1 (by decide))).trans (W11_kept m ρ c main_arg1 (by decide) (by decide) (by decide) (W2_of_ne m ρ c main_arg1 (by decide))),
    (h c _ (mem_uc main_arg2 (by decide))).trans (W11_kept m ρ c main_arg2 (by decide) (by decide) (by decide) (W2_of_ne m ρ c main_arg2 (by decide))),
    (h c _ (mem_uc main_arg3 (by decide))).trans (W11_kept m ρ c main_arg3 (by decide) (by decide) (by decide) (W2_of_ne m ρ c main_arg3 (by decide))),
    (h c _ (mem_uc main_arg4 (by decide))).trans (W11_kept m ρ c main_arg4 (by decide) (by decide) (by decide) (W2_of_ne m ρ c main_arg4 (by decide))),
    (h c _ (mem_uc main_arg5 (by decide))).trans (W11_kept m ρ c main_arg5 (by decide) (by decide) (by decide) (W2_of_ne m ρ c main_arg5 (by decide))),
    (h c _ (mem_uc main_arg6 (by decide))).trans (W11_kept m ρ c main_arg6 (by decide) (by decide) (by decide) (W2_of_ne m ρ c main_arg6 (by decide))),
    (h c _ (mem_uc main_arg7 (by decide))).trans (W11_kept m ρ c main_arg7 (by decide) (by decide) (by decide) (W2_of_ne m ρ c main_arg7 (by decide)))⟩) (run_all m ρ)

end Cert.KernelIdeal.Hand

end
-- ==== Proof.RefReadP.lean ====
import proofs.«138361_j81398220194162_1_alg».proof.Proof.RefRunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v1 (x1 : (⟨S2x1600000, .i32⟩ : BufTy).Contents (Elt F)) : (⟨S1600000, .i32⟩ : BufTy).Contents (Elt F) :=
  shapeCast _ (val_main_v0 (F := F) x1) shapeCasts_S1x1600000_S1600000

def val_main_v2 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v3 (x1 : (⟨S2x1600000, .i32⟩ : BufTy).Contents (Elt F)) : (⟨S1600000, .i32⟩ : BufTy).Contents (Elt F) :=
  shapeCast _ (val_main_v2 (F := F) x1) shapeCasts_S1x1600000_S1600000

def val_main_v4 (x2 : (⟨S64x100000, .f32⟩ : BufTy).Contents (Elt F)) : (⟨S100000x64, .f32⟩ : BufTy).Contents (Elt F) :=
  transpose S100000x64 [1, 0] (x2) transposes_S64x100000_S100000x64_1_0

def val_main_c : (⟨S_, .i32⟩ : BufTy).Contents (Elt F) :=
  constantI S_ 32 0#32

def val_main_v5 : (⟨S1600000, .i32⟩ : BufTy).Contents (Elt F) :=
  broadcastInDim S1600000 ![] bcast_S_S1600000 (val_main_c (F := F))

def val_main_v6 (x1 : (⟨S2x1600000, .i32⟩ : BufTy).Contents (Elt F)) : (⟨S1600000, .i1⟩ : BufTy).Contents (Elt F) :=
  cmpi .slt (val_main_v1 (F := F) x1) (val_main_v5 (F := F))

def val_main_c_0 : (⟨S_, .i32⟩ : BufTy).Contents (Elt F) :=
  constantI S_ 32 100000#32

def val_main_v7 : (⟨S1600000, .i32⟩ : BufTy).Contents (Elt F) :=
  broadcastInDim S1600000 ![] bcast_S_S1600000 (val_main_c_0 (F := F))

def val_main_v8 (x1 : (⟨S2x1600000, .i32⟩ : BufTy).Contents (Elt F)) : (⟨S1600000, .i32⟩ : BufTy).Contents (Elt F) :=
  addi (val_main_v1 (F := F) x1) (val_main_v7 (F := F))

def val_main_v9 (x1 : (⟨S2x1600000, .i32⟩ : BufTy).Contents (Elt F)) : (⟨S1600000, .i32⟩ : BufTy).Contents (Elt F) :=
  select (val_main_v6 (F := F) x1) (val_main_v8 (F := F) x1) (val_main_v1 (F := F) x1)

def val_main_v10 (x1 : (⟨S2x1600000, .i32⟩ : BufTy).Contents (Elt F)) : (⟨S1600000x1, .i32⟩ : BufTy).Contents (Elt F) :=
  broadcastInDim S1600000x1 ![0] bcast_S1600000_S1600000x1_0 (val_main_v9 (F := F) x1)

def val_main_v11 (x1 : (⟨S2x1600000, .i32⟩ : BufTy).Contents (Elt F)) (x2 : (⟨S64x100000, .f32⟩ : BufTy).Contents (Elt F)) : (⟨S1600000x64, .f32⟩ : BufTy).Contents (Elt F) :=
  Host.gather gather_S100000x64_S1600000x1_S1600000x64_1_0_n_n_0_1_164 (val_main_v4 (F := F) x2) (val_main_v10 (F := F) x1)

def val_main_cst : (⟨S_, .f32⟩ : BufTy).Contents (Elt F) :=
  constant S_ .f32 0x00000000#32

def val_main_v12 : (⟨S100000x64, .f32⟩ : BufTy).Contents (Elt F) :=
  broadcastInDim S100000x64 ![] bcast_S_S100000x64 (val_main_cst (F := F))

def val_main_v13 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v14 (x1 : (⟨S2x1600000, .i32⟩ : BufTy).Contents (Elt F)) (x2 : (⟨S64x100000, .f32⟩ : BufTy).Contents (Elt F)) : (⟨S100000x64, .f32⟩ : BufTy).Contents (Elt F) :=
  Host.scatterAdd scatter_S100000x64_S1600000x1_S1600000x64_1_0_0_1 (val_main_v12 (F := F)) (val_main_v13 (F := F) x1) (val_main_v11 (F := F) x1 x2)

def val_main_v15 (x3 : (⟨S64, .f32⟩ : BufTy).Contents (Elt F)) : (⟨S1x64, .f32⟩ : BufTy).Contents (Elt F) :=
  broadcastInDim S1x64 ![1] bcast_S64_S1x64_1 (x3)

def val_main_v16 (x3 : (⟨S64, .f32⟩ : BufTy).Contents (Elt F)) : (⟨S100000x64, .f32⟩ : BufTy).Contents (Elt F) :=
  broadcastInDim S100000x64 ![0, 1] bcast_S1x64_S100000x64_0_1 (val_main_v15 (F := F) x3)

def val_main_v17 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  addf (val_main_v14 (F := F) x1 x2) (val_main_v16 (F := F) x3)

def val_main_v18 (x4 : (⟨S256x128, .f32⟩ : BufTy).Contents (Elt F)) : (⟨S128x256, .f32⟩ : BufTy).Contents (Elt F) :=
  transpose S128x256 [1, 0] (x4) transposes_S256x128_S128x256_1_0

def val_main_v19 (x0 : (⟨S100000x128, .f32⟩ : BufTy).Contents (Elt F)) (x4 : (⟨S256x128, .f32⟩ : BufTy).Contents (Elt F)) : (⟨S100000x256, .f32⟩ : BufTy).Contents (Elt F) :=
  Host.dotGeneral dot_S100000x128_S128x256_S100000x256_1_0_0_1_n_n none (x0) (val_main_v18 (F := F) x4)
theorem lhs_main_v19_0 (i : S100000x256.Idx) (q : dot_S100000x128_S128x256_S100000x256_1_0_0_1_n_n.contr.Idx) :
    (dot_S100000x128_S128x256_S100000x256_1_0_0_1_n_n.lhsIdx i q 0).val = (i 0).val := by
  unfold DotDims.lhsIdx
  rw [dif_neg (show ¬(0 : Fin S100000x128.rank) ∈ dot_S100000x128_S128x256_S100000x256_1_0_0_1_n_n.lhsBatch by decide), dif_pos (show (0 : Fin S100000x128.rank) ∈ dot_S100000x128_S128x256_S100000x256_1_0_0_1_n_n.lhsNonContracting by decide)]
  rfl
theorem lhs_main_v19_1 (i : S100000x256.Idx) (q : dot_S100000x128_S128x256_S100000x256_1_0_0_1_n_n.contr.Idx) :
    (dot_S100000x128_S128x256_S100000x256_1_0_0_1_n_n.lhsIdx i q 1).val = (q ⟨0, by decide⟩).val :=
  dot_S100000x128_S128x256_S100000x256_1_0_0_1_n_n.lhsIdx_val_of_single rfl i q
theorem rhs_main_v19_0 (i : S100000x256.Idx) (q : dot_S100000x128_S128x256_S100000x256_1_0_0_1_n_n.contr.Idx) :
    (dot_S100000x128_S128x256_S100000x256_1_0_0_1_n_n.rhsIdx i q 0).val = (q ⟨0, by decide⟩).val :=
  dot_S100000x128_S128x256_S100000x256_1_0_0_1_n_n.rhsIdx_val_of_single rfl i q
theorem rhs_main_v19_1 (i : S100000x256.Idx) (q : dot_S100000x128_S128x256_S100000x256_1_0_0_1_n_n.contr.Idx) :
    (dot_S100000x128_S128x256_S100000x256_1_0_0_1_n_n.rhsIdx i q 1).val = (i 1).val := by
  unfold DotDims.rhsIdx
  rw [dif_neg (show ¬(1 : Fin S128x256.rank) ∈ dot_S100000x128_S128x256_S100000x256_1_0_0_1_n_n.rhsBatch by decide), dif_pos (show (1 : Fin S128x256.rank) ∈ dot_S100000x128_S128x256_S100000x256_1_0_0_1_n_n.rhsNonContracting by decide)]
  rfl
abbrev lidx_main_v19 (i : S100000x256.Idx) (k : Fin 128) : S100000x128.Idx := fun a => match a with
  | ⟨0, _⟩ => ⟨(i 0).val, (i 0).isLt⟩
  | ⟨1, _⟩ => ⟨k.val, k.isLt⟩
abbrev ridx_main_v19 (i : S100000x256.Idx) (k : Fin 128) : S128x256.Idx := fun a => match a with
  | ⟨0, _⟩ => ⟨k.val, k.isLt⟩
  | ⟨1, _⟩ => ⟨(i 1).val, (i 1).isLt⟩
theorem val_main_v19_apply (x0 : (⟨S100000x128, .f32⟩ : BufTy).Contents (Elt Ideal)) (x4 : (⟨S256x128, .f32⟩ : BufTy).Contents (Elt Ideal)) (i : S100000x256.Idx) :
    val_main_v19 (F := Ideal) x0 x4 i = ∑ k : Fin 128, x0 (lidx_main_v19 i k) * (val_main_v18 (F := Ideal) x4) (ridx_main_v19 i k) := by
  unfold val_main_v19
  generalize val_main_v18 (F := Ideal) x4 = y0
  simp only [Host.dotGeneral]
  rw [Ideal.dotGeneral_apply, ← Equiv.sum_comp (ValueIdx.contrEquiv1 dot_S100000x128_S128x256_S100000x256_1_0_0_1_n_n 128 rfl rfl).symm]
  refine Finset.sum_congr rfl fun k _ => ?_
  have hk := ValueIdx.contrEquiv1_symm_val dot_S100000x128_S128x256_S100000x256_1_0_0_1_n_n 128 rfl rfl k
  have el : dot_S100000x128_S128x256_S100000x256_1_0_0_1_n_n.lhsIdx i ((ValueIdx.contrEquiv1 dot_S100000x128_S128x256_S100000x256_1_0_0_1_n_n 128 rfl rfl).symm k) = lidx_main_v19 i k := funext fun a => Fin.ext (by
    match a with
    | ⟨0, _⟩ => exact lhs_main_v19_0 _ _
    | ⟨1, _⟩ => exact (lhs_main_v19_1 _ _).trans hk)
  have er : dot_S100000x128_S128x256_S100000x256_1_0_0_1_n_n.rhsIdx i ((ValueIdx.contrEquiv1 dot_S100000x128_S128x256_S100000x256_1_0_0_1_n_n 128 rfl rfl).symm k) = ridx_main_v19 i k := funext fun a => Fin.ext (by
    match a with
    | ⟨0, _⟩ => exact (rhs_main_v19_0 _ _).trans hk
    | ⟨1, _⟩ => exact rhs_main_v19_1 _ _)
  rw [el, er]

def val_main_v20 (x5 : (⟨S256, .f32⟩ : BufTy).Contents (Elt F)) : (⟨S1x256, .f32⟩ : BufTy).Contents (Elt F) :=
  broadcastInDim S1x256 ![1] bcast_S256_S1x256_1 (x5)
abbrev idx_main_v20 (i : S1x256.Idx) : S256.Idx := fun a => match a with
  | ⟨0, _⟩ => ⟨(i 1).val, (i 1).isLt⟩
theorem val_main_v20_apply (x5 : (⟨S256, .f32⟩ : BufTy).Contents (Elt F)) (i : S1x256.Idx) :
    val_main_v20 (F := F) x5 i = x5 (idx_main_v20 i) := by
  unfold val_main_v20
  exact broadcastInDim_apply _ bcast_S256_S1x256_1 x5 i (idx_main_v20 i) (fun a => match a with
    | ⟨0, _⟩ => by show (i 1).val = if (256 : Nat) = 1 then 0 else (i 1).val; rw [if_neg (by decide)])

def val_main_v21 (x5 : (⟨S256, .f32⟩ : BufTy).Contents (Elt F)) : (⟨S100000x256, .f32⟩ : BufTy).Contents (Elt F) :=
  broadcastInDim S100000x256 ![0, 1] bcast_S1x256_S100000x256_0_1 (val_main_v20 (F := F) x5)
abbrev idx_main_v21 (i : S100000x256.Idx) : S1x256.Idx := fun a => match a with
  | ⟨0, _⟩ => ⟨0, Nat.one_pos⟩
  | ⟨1, _⟩ => ⟨(i 1).val, (i 1).isLt⟩
theorem val_main_v21_apply (x5 : (⟨S256, .f32⟩ : BufTy).Contents (Elt F)) (i : S100000x256.Idx) :
    val_main_v21 (F := F) x5 i = val_main_v20 (F := F) x5 (idx_main_v21 i) := by
  unfold val_main_v21
  generalize val_main_v20 (F := F) x5 = y
  exact broadcastInDim_apply _ bcast_S1x256_S100000x256_0_1 y i (idx_main_v21 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v22 (x0 : (⟨S100000x128, .f32⟩ : BufTy).Contents (Elt F)) (x4 : (⟨S256x128, .f32⟩ : BufTy).Contents (Elt F)) (x5 : (⟨S256, .f32⟩ : BufTy).Contents (Elt F)) : (⟨S100000x256, .f32⟩ : BufTy).Contents (Elt F) :=
  addf (val_main_v19 (F := F) x0 x4) (val_main_v21 (F := F) x5)
theorem val_main_v22_apply (x0 : (⟨S100000x128, .f32⟩ : BufTy).Contents (Elt F)) (x4 : (⟨S256x128, .f32⟩ : BufTy).Contents (Elt F)) (x5 : (⟨S256, .f32⟩ : BufTy).Contents (Elt F)) (i : S100000x256.Idx) :
    val_main_v22 (F := F) x0 x4 x5 i = FloatOps.addf (val_main_v19 (F := F) x0 x4 i) (val_main_v21 (F := F) x5 i) := rfl

def val_main_cst_1 : (⟨S_, .f32⟩ : BufTy).Contents (Elt F) :=
  constant S_ .f32 0xFF800000#32

def val_main_v23 (x1 : (⟨S2x1600000, .i32⟩ : BufTy).Contents (Elt F)) (x2 : (⟨S64x100000, .f32⟩ : BufTy).Contents (Elt F)) (x3 : (⟨S64, .f32⟩ : BufTy).Contents (Elt F)) : (⟨S100000, .f32⟩ : BufTy).Contents (Elt F) :=
  Host.reduce FloatOps.maximumf (val_main_v17 (F := F) x1 x2 x3) (val_main_cst_1 (F := F)) reducesTo_S100000x64_S100000_d1 h_S_

def val_main_cst_2 : (⟨S_, .f32⟩ : BufTy).Contents (Elt F) :=
  constant S_ .f32 0xFF800000#32

def val_main_v24 : (⟨S100000, .f32⟩ : BufTy).Contents (Elt F) :=
  broadcastInDim S100000 ![] bcast_S_S100000 (val_main_cst_2 (F := F))
abbrev idx_main_v24 (i : S100000.Idx) : S_.Idx := fun a => a.elim0
theorem val_main_v24_apply (i : S100000.Idx) :
    val_main_v24 (F := F) i = val_main_cst_2 (F := F) (idx_main_v24 i) := by
  unfold val_main_v24
  generalize val_main_cst_2 (F := F) = y
  exact broadcastInDim_apply _ bcast_S_S100000 y i (idx_main_v24 i) (fun a => a.elim0)

def val_main_v25 (x1 : (⟨S2x1600000, .i32⟩ : BufTy).Contents (Elt F)) (x2 : (⟨S64x100000, .f32⟩ : BufTy).Contents (Elt F)) (x3 : (⟨S64, .f32⟩ : BufTy).Contents (Elt F)) : (⟨S100000, .f32⟩ : BufTy).Contents (Elt F) :=
  maximumf (val_main_v24 (F := F)) (val_main_v23 (F := F) x1 x2 x3)
theorem val_main_v25_apply (x1 : (⟨S2x1600000, .i32⟩ : BufTy).Contents (Elt F)) (x2 : (⟨S64x100000, .f32⟩ : BufTy).Contents (Elt F)) (x3 : (⟨S64, .f32⟩ : BufTy).Contents (Elt F)) (i : S100000.Idx) :
    val_main_v25 (F := F) x1 x2 x3 i = FloatOps.maximumf (val_main_v24 (F := F) i) (val_main_v23 (F := F) x1 x2 x3 i) := rfl

def val_main_v26 (x1 : (⟨S2x1600000, .i32⟩ : BufTy).Contents (Elt F)) (x2 : (⟨S64x100000, .f32⟩ : BufTy).Contents (Elt F)) (x3 : (⟨S64, .f32⟩ : BufTy).Contents (Elt F)) : (⟨S100000x1, .f32⟩ : BufTy).Contents (Elt F) :=
  broadcastInDim S100000x1 ![0] bcast_S100000_S100000x1_0 (val_main_v25 (F := F) x1 x2 x3)
abbrev idx_main_v26 (i : S100000x1.Idx) : S100000.Idx := fun a => match a with
  | ⟨0, _⟩ => ⟨(i 0).val, (i 0).isLt⟩
theorem val_main_v26_apply (x1 : (⟨S2x1600000, .i32⟩ : BufTy).Contents (Elt F)) (x2 : (⟨S64x100000, .f32⟩ : BufTy).Contents (Elt F)) (x3 : (⟨S64, .f32⟩ : BufTy).Contents (Elt F)) (i : S100000x1.Idx) :
    val_main_v26 (F := F) x1 x2 x3 i = val_main_v25 (F := F) x1 x2 x3 (idx_main_v26 i) := by
  unfold val_main_v26
  generalize val_main_v25 (F := F) x1 x2 x3 = y
  exact broadcastInDim_apply _ bcast_S100000_S100000x1_0 y i (idx_main_v26 i) (fun a => match a with
    | ⟨0, _⟩ => by show (i 0).val = if (100000 : Nat) = 1 then 0 else (i 0).val; rw [if_neg (by decide)])

def val_main_v27 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  broadcastInDim S100000x64 ![0, 1] bcast_S100000x1_S100000x64_0_1 (val_main_v26 (F := F) x1 x2 x3)
abbrev idx_main_v27 (i : S100000x64.Idx) : S100000x1.Idx := fun a => match a with
  | ⟨0, _⟩ => ⟨(i 0).val, (i 0).isLt⟩
  | ⟨1, _⟩ => ⟨0, Nat.one_pos⟩
theorem val_main_v27_apply (x1 : (⟨S2x1600000, .i32⟩ : BufTy).Contents (Elt F)) (x2 : (⟨S64x100000, .f32⟩ : BufTy).Contents (Elt F)) (x3 : (⟨S64, .f32⟩ : BufTy).Contents (Elt F)) (i : S100000x64.Idx) :
    val_main_v27 (F := F) x1 x2 x3 i = val_main_v26 (F := F) x1 x2 x3 (idx_main_v27 i) := by
  unfold val_main_v27
  generalize val_main_v26 (F := F) x1 x2 x3 = y
  exact broadcastInDim_apply _ bcast_S100000x1_S100000x64_0_1 y i (idx_main_v27 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v28 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  subf (val_main_v17 (F := F) x1 x2 x3) (val_main_v27 (F := F) x1 x2 x3)
theorem val_main_v28_apply (x1 : (⟨S2x1600000, .i32⟩ : BufTy).Contents (Elt F)) (x2 : (⟨S64x100000, .f32⟩ : BufTy).Contents (Elt F)) (x3 : (⟨S64, .f32⟩ : BufTy).Contents (Elt F)) (i : S100000x64.Idx) :
    val_main_v28 (F := F) x1 x2 x3 i = FloatOps.subf (val_main_v17 (F := F) x1 x2 x3 i) (val_main_v27 (F := F) x1 x2 x3 i) := rfl

def val_main_v29 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  Host.exp (val_main_v28 (F := F) x1 x2 x3)
theorem val_main_v29_apply (x1 : (⟨S2x1600000, .i32⟩ : BufTy).Contents (Elt F)) (x2 : (⟨S64x100000, .f32⟩ : BufTy).Contents (Elt F)) (x3 : (⟨S64, .f32⟩ : BufTy).Contents (Elt F)) (i : S100000x64.Idx) :
    val_main_v29 (F := F) x1 x2 x3 i = FloatOps.hostUnary .exp (val_main_v28 (F := F) x1 x2 x3 i) := rfl

def val_main_cst_3 : (⟨S_, .f32⟩ : BufTy).Contents (Elt F) :=
  constant S_ .f32 0x00000000#32

def val_main_v30 (x1 : (⟨S2x1600000, .i32⟩ : BufTy).Contents (Elt F)) (x2 : (⟨S64x100000, .f32⟩ : BufTy).Contents (Elt F)) (x3 : (⟨S64, .f32⟩ : BufTy).Contents (Elt F)) : (⟨S100000, .f32⟩ : BufTy).Contents (Elt F) :=
  Host.reduceAdd (val_main_v29 (F := F) x1 x2 x3) (val_main_cst_3 (F := F)) reducesTo_S100000x64_S100000_d1 h_S_
abbrev idx_main_v30 (i : S100000.Idx) (k : Fin 64) : S100000x64.Idx := fun a => match a with
  | ⟨0, _⟩ => ⟨(i 0).val, (i 0).isLt⟩
  | ⟨1, _⟩ => ⟨k.val, k.isLt⟩
theorem val_main_v30_apply (x1 : (⟨S2x1600000, .i32⟩ : BufTy).Contents (Elt Ideal)) (x2 : (⟨S64x100000, .f32⟩ : BufTy).Contents (Elt Ideal)) (x3 : (⟨S64, .f32⟩ : BufTy).Contents (Elt Ideal)) (i : S100000.Idx) :
    val_main_v30 (F := Ideal) x1 x2 x3 i = (val_main_cst_3 (F := Ideal)) (Shape.Idx.first h_S_) + ∑ k : Fin 64, (val_main_v29 (F := Ideal) x1 x2 x3) (idx_main_v30 i k) := by
  unfold val_main_v30
  generalize val_main_v29 (F := Ideal) x1 x2 x3 = y0
  simp only [Host.reduceAdd, Ideal.hostReduceAdd_def]
  rw [Ideal.hostReduceAdd_single reducesTo_S100000x64_S100000_d1 (by decide)]
  refine congrArg (_ + ·) (Finset.sum_congr rfl fun k _ => ?_)
  exact congrArg y0 (funext fun a => Fin.ext (by match a with | ⟨0, _⟩ => rfl | ⟨1, _⟩ => rfl))

def val_main_v31 (x1 : (⟨S2x1600000, .i32⟩ : BufTy).Contents (Elt F)) (x2 : (⟨S64x100000, .f32⟩ : BufTy).Contents (Elt F)) (x3 : (⟨S64, .f32⟩ : BufTy).Contents (Elt F)) : (⟨S100000x1, .f32⟩ : BufTy).Contents (Elt F) :=
  broadcastInDim S100000x1 ![0] bcast_S100000_S100000x1_0 (val_main_v30 (F := F) x1 x2 x3)
abbrev idx_main_v31 (i : S100000x1.Idx) : S100000.Idx := fun a => match a with
  | ⟨0, _⟩ => ⟨(i 0).val, (i 0).isLt⟩
theorem val_main_v31_apply (x1 : (⟨S2x1600000, .i32⟩ : BufTy).Contents (Elt F)) (x2 : (⟨S64x100000, .f32⟩ : BufTy).Contents (Elt F)) (x3 : (⟨S64, .f32⟩ : BufTy).Contents (Elt F)) (i : S100000x1.Idx) :
    val_main_v31 (F := F) x1 x2 x3 i = val_main_v30 (F := F) x1 x2 x3 (idx_main_v31 i) := by
  unfold val_main_v31
  generalize val_main_v30 (F := F) x1 x2 x3 = y
  exact broadcastInDim_apply _ bcast_S100000_S100000x1_0 y i (idx_main_v31 i) (fun a => match a with
    | ⟨0, _⟩ => by show (i 0).val = if (100000 : Nat) = 1 then 0 else (i 0).val; rw [if_neg (by decide)])

def val_main_v32 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  broadcastInDim S100000x64 ![0, 1] bcast_S100000x1_S100000x64_0_1 (val_main_v31 (F := F) x1 x2 x3)
abbrev idx_main_v32 (i : S100000x64.Idx) : S100000x1.Idx := fun a => match a with
  | ⟨0, _⟩ => ⟨(i 0).val, (i 0).isLt⟩
  | ⟨1, _⟩ => ⟨0, Nat.one_pos⟩
theorem val_main_v32_apply (x1 : (⟨S2x1600000, .i32⟩ : BufTy).Contents (Elt F)) (x2 : (⟨S64x100000, .f32⟩ : BufTy).Contents (Elt F)) (x3 : (⟨S64, .f32⟩ : BufTy).Contents (Elt F)) (i : S100000x64.Idx) :
    val_main_v32 (F := F) x1 x2 x3 i = val_main_v31 (F := F) x1 x2 x3 (idx_main_v32 i) := by
  unfold val_main_v32
  generalize val_main_v31 (F := F) x1 x2 x3 = y
  exact broadcastInDim_apply _ bcast_S100000x1_S100000x64_0_1 y i (idx_main_v32 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v33 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  Host.divf (val_main_v29 (F := F) x1 x2 x3) (val_main_v32 (F := F) x1 x2 x3)
theorem val_main_v33_apply (x1 : (⟨S2x1600000, .i32⟩ : BufTy).Contents (Elt F)) (x2 : (⟨S64x100000, .f32⟩ : BufTy).Contents (Elt F)) (x3 : (⟨S64, .f32⟩ : BufTy).Contents (Elt F)) (i : S100000x64.Idx) :
    val_main_v33 (F := F) x1 x2 x3 i = FloatOps.hostDivf (val_main_v29 (F := F) x1 x2 x3 i) (val_main_v32 (F := F) x1 x2 x3 i) := rfl

def val_main_c_4 : (⟨S_, .i32⟩ : BufTy).Contents (Elt F) :=
  constantI S_ 32 0#32

def val_main_v34 : (⟨S1600000, .i32⟩ : BufTy).Contents (Elt F) :=
  broadcastInDim S1600000 ![] bcast_S_S1600000 (val_main_c_4 (F := F))

def val_main_v35 (x1 : (⟨S2x1600000, .i32⟩ : BufTy).Contents (Elt F)) : (⟨S1600000, .i1⟩ : BufTy).Contents (Elt F) :=
  cmpi .slt (val_main_v1 (F := F) x1) (val_main_v34 (F := F))

def val_main_c_5 : (⟨S_, .i32⟩ : BufTy).Contents (Elt F) :=
  constantI S_ 32 100000#32

def val_main_v36 : (⟨S1600000, .i32⟩ : BufTy).Contents (Elt F) :=
  broadcastInDim S1600000 ![] bcast_S_S1600000 (val_main_c_5 (F := F))

def val_main_v37 (x1 : (⟨S2x1600000, .i32⟩ : BufTy).Contents (Elt F)) : (⟨S1600000, .i32⟩ : BufTy).Contents (Elt F) :=
  addi (val_main_v1 (F := F) x1) (val_main_v36 (F := F))

def val_main_v38 (x1 : (⟨S2x1600000, .i32⟩ : BufTy).Contents (Elt F)) : (⟨S1600000, .i32⟩ : BufTy).Contents (Elt F) :=
  select (val_main_v35 (F := F) x1) (val_main_v37 (F := F) x1) (val_main_v1 (F := F) x1)

def val_main_v39 (x1 : (⟨S2x1600000, .i32⟩ : BufTy).Contents (Elt F)) : (⟨S1600000x1, .i32⟩ : BufTy).Contents (Elt F) :=
  broadcastInDim S1600000x1 ![0] bcast_S1600000_S1600000x1_0 (val_main_v38 (F := F) x1)

def val_main_v40 (x1 : (⟨S2x1600000, .i32⟩ : BufTy).Contents (Elt F)) (x2 : (⟨S64x100000, .f32⟩ : BufTy).Contents (Elt F)) (x3 : (⟨S64, .f32⟩ : BufTy).Contents (Elt F)) : (⟨S1600000x64, .f32⟩ : BufTy).Contents (Elt F) :=
  Host.gather gather_S100000x64_S1600000x1_S1600000x64_1_0_n_n_0_1_164 (val_main_v33 (F := F) x1 x2 x3) (val_main_v39 (F := F) x1)

def val_main_cst_6 : (⟨S_, .f32⟩ : BufTy).Contents (Elt F) :=
  constant S_ .f32 0x00000000#32

def val_main_v41 : (⟨S100000x64, .f32⟩ : BufTy).Contents (Elt F) :=
  broadcastInDim S100000x64 ![] bcast_S_S100000x64 (val_main_cst_6 (F := F))

def val_main_v42 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v43 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  Host.scatterAdd scatter_S100000x64_S1600000x1_S1600000x64_1_0_0_1 (val_main_v41 (F := F)) (val_main_v42 (F := F) x1) (val_main_v40 (F := F) x1 x2 x3)

def val_main_v44 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  mulf (val_main_v33 (F := F) x1 x2 x3) (val_main_v43 (F := F) x1 x2 x3)

def val_main_cst_7 : (⟨S_, .f32⟩ : BufTy).Contents (Elt F) :=
  constant S_ .f32 0x00000000#32

def val_main_v45 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.reduceAdd (val_main_v44 (F := F) x1 x2 x3) (val_main_cst_7 (F := F)) reducesTo_S100000x64_S_d0_1 h_S_
theorem val_main_v45_apply (x1 : (⟨S2x1600000, .i32⟩ : BufTy).Contents (Elt Ideal)) (x2 : (⟨S64x100000, .f32⟩ : BufTy).Contents (Elt Ideal)) (x3 : (⟨S64, .f32⟩ : BufTy).Contents (Elt Ideal)) (i : S_.Idx) :
    val_main_v45 (F := Ideal) x1 x2 x3 i = (val_main_cst_7 (F := Ideal)) (Shape.Idx.first h_S_) + ∑ j : S100000x64.Idx, (val_main_v44 (F := Ideal) x1 x2 x3) j := by
  unfold val_main_v45
  generalize val_main_v44 (F := Ideal) x1 x2 x3 = y0
  simp only [Host.reduceAdd, Ideal.hostReduceAdd_def]
  exact Ideal.hostReduceAdd_total reducesTo_S100000x64_S_d0_1 (fun b => b.elim0) y0 _ i

def val_main_cst_8 : (⟨S_, .f32⟩ : BufTy).Contents (Elt F) :=
  constant S_ .f32 0x3F800000#32

def val_main_v46 : (⟨S1600000, .f32⟩ : BufTy).Contents (Elt F) :=
  broadcastInDim S1600000 ![] bcast_S_S1600000 (val_main_cst_8 (F := F))

def val_main_cst_9 : (⟨S_, .f32⟩ : BufTy).Contents (Elt F) :=
  constant S_ .f32 0x00000000#32

def val_main_v47 : (⟨S100000, .f32⟩ : BufTy).Contents (Elt F) :=
  broadcastInDim S100000 ![] bcast_S_S100000 (val_main_cst_9 (F := F))

def val_main_v48 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v49 (x1 : (⟨S2x1600000, .i32⟩ : BufTy).Contents (Elt F)) : (⟨S100000, .f32⟩ : BufTy).Contents (Elt F) :=
  Host.scatterAdd scatter_S100000_S1600000x1_S1600000_n_0_0_1 (val_main_v47 (F := F)) (val_main_v48 (F := F) x1) (val_main_v46 (F := F))

def val_main_v50 (x1 : (⟨S2x1600000, .i32⟩ : BufTy).Contents (Elt F)) : (⟨S100000x1, .f32⟩ : BufTy).Contents (Elt F) :=
  broadcastInDim S100000x1 ![0] bcast_S100000_S100000x1_0 (val_main_v49 (F := F) x1)
abbrev idx_main_v50 (i : S100000x1.Idx) : S100000.Idx := fun a => match a with
  | ⟨0, _⟩ => ⟨(i 0).val, (i 0).isLt⟩
theorem val_main_v50_apply (x1 : (⟨S2x1600000, .i32⟩ : BufTy).Contents (Elt F)) (i : S100000x1.Idx) :
    val_main_v50 (F := F) x1 i = val_main_v49 (F := F) x1 (idx_main_v50 i) := by
  unfold val_main_v50
  generalize val_main_v49 (F := F) x1 = y
  exact broadcastInDim_apply _ bcast_S100000_S100000x1_0 y i (idx_main_v50 i) (fun a => match a with
    | ⟨0, _⟩ => by show (i 0).val = if (100000 : Nat) = 1 then 0 else (i 0).val; rw [if_neg (by decide)])

def val_main_v51 (x1 : (⟨S2x1600000, .i32⟩ : BufTy).Contents (Elt F)) : (⟨S100000x64, .f32⟩ : BufTy).Contents (Elt F) :=
  broadcastInDim S100000x64 ![0, 1] bcast_S100000x1_S100000x64_0_1 (val_main_v50 (F := F) x1)
abbrev idx_main_v51 (i : S100000x64.Idx) : S100000x1.Idx := fun a => match a with
  | ⟨0, _⟩ => ⟨(i 0).val, (i 0).isLt⟩
  | ⟨1, _⟩ => ⟨0, Nat.one_pos⟩
theorem val_main_v51_apply (x1 : (⟨S2x1600000, .i32⟩ : BufTy).Contents (Elt F)) (i : S100000x64.Idx) :
    val_main_v51 (F := F) x1 i = val_main_v50 (F := F) x1 (idx_main_v51 i) := by
  unfold val_main_v51
  generalize val_main_v50 (F := F) x1 = y
  exact broadcastInDim_apply _ bcast_S100000x1_S100000x64_0_1 y i (idx_main_v51 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v52 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  mulf (val_main_v51 (F := F) x1) (val_main_v33 (F := F) x1 x2 x3)
theorem val_main_v52_apply (x1 : (⟨S2x1600000, .i32⟩ : BufTy).Contents (Elt F)) (x2 : (⟨S64x100000, .f32⟩ : BufTy).Contents (Elt F)) (x3 : (⟨S64, .f32⟩ : BufTy).Contents (Elt F)) (i : S100000x64.Idx) :
    val_main_v52 (F := F) x1 x2 x3 i = FloatOps.mulf (val_main_v51 (F := F) x1 i) (val_main_v33 (F := F) x1 x2 x3 i) := rfl

def val_main_v53 (x1 : (⟨S2x1600000, .i32⟩ : BufTy).Contents (Elt F)) (x2 : (⟨S64x100000, .f32⟩ : BufTy).Contents (Elt F)) (x3 : (⟨S64, .f32⟩ : BufTy).Contents (Elt F)) : (⟨S100000x64, .f32⟩ : BufTy).Contents (Elt F) :=
  mulf (val_main_v52 (F := F) x1 x2 x3) (val_main_v33 (F := F) x1 x2 x3)
theorem val_main_v53_apply (x1 : (⟨S2x1600000, .i32⟩ : BufTy).Contents (Elt F)) (x2 : (⟨S64x100000, .f32⟩ : BufTy).Contents (Elt F)) (x3 : (⟨S64, .f32⟩ : BufTy).Contents (Elt F)) (i : S100000x64.Idx) :
    val_main_v53 (F := F) x1 x2 x3 i = FloatOps.mulf (val_main_v52 (F := F) x1 x2 x3 i) (val_main_v33 (F := F) x1 x2 x3 i) := rfl

def val_main_cst_10 : (⟨S_, .f32⟩ : BufTy).Contents (Elt F) :=
  constant S_ .f32 0x00000000#32

def val_main_v54 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.reduceAdd (val_main_v53 (F := F) x1 x2 x3) (val_main_cst_10 (F := F)) reducesTo_S100000x64_S_d0_1 h_S_
theorem val_main_v54_apply (x1 : (⟨S2x1600000, .i32⟩ : BufTy).Contents (Elt Ideal)) (x2 : (⟨S64x100000, .f32⟩ : BufTy).Contents (Elt Ideal)) (x3 : (⟨S64, .f32⟩ : BufTy).Contents (Elt Ideal)) (i : S_.Idx) :
    val_main_v54 (F := Ideal) x1 x2 x3 i = (val_main_cst_10 (F := Ideal)) (Shape.Idx.first h_S_) + ∑ j : S100000x64.Idx, (val_main_v53 (F := Ideal) x1 x2 x3) j := by
  unfold val_main_v54
  generalize val_main_v53 (F := Ideal) x1 x2 x3 = y0
  simp only [Host.reduceAdd, Ideal.hostReduceAdd_def]
  exact Ideal.hostReduceAdd_total reducesTo_S100000x64_S_d0_1 (fun b => b.elim0) y0 _ i

def val_main_v55 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.divf (val_main_v45 (F := F) x1 x2 x3) (val_main_v54 (F := F) x1 x2 x3)

def val_main_v56 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.negf (val_main_v55 (F := F) x1 x2 x3)

def val_main_v57 (x1 : (⟨S2x1600000, .i32⟩ : BufTy).Contents (Elt F)) (x2 : (⟨S64x100000, .f32⟩ : BufTy).Contents (Elt F)) (x3 : (⟨S64, .f32⟩ : BufTy).Contents (Elt F)) : (⟨S64x100000, .f32⟩ : BufTy).Contents (Elt F) :=
  transpose S64x100000 [1, 0] (val_main_v33 (F := F) x1 x2 x3) transposes_S100000x64_S64x100000_1_0
abbrev idx_main_v57 (i : S64x100000.Idx) : S100000x64.Idx := fun a => match a with
  | ⟨0, _⟩ => ⟨(i 1).val, (i 1).isLt⟩
  | ⟨1, _⟩ => ⟨(i 0).val, (i 0).isLt⟩
theorem val_main_v57_apply (x1 : (⟨S2x1600000, .i32⟩ : BufTy).Contents (Elt F)) (x2 : (⟨S64x100000, .f32⟩ : BufTy).Contents (Elt F)) (x3 : (⟨S64, .f32⟩ : BufTy).Contents (Elt F)) (i : S64x100000.Idx) :
    val_main_v57 (F := F) x1 x2 x3 i = val_main_v33 (F := F) x1 x2 x3 (idx_main_v57 i) := by
  unfold val_main_v57
  generalize val_main_v33 (F := F) x1 x2 x3 = y
  exact transpose_apply [1, 0] y transposes_S100000x64_S64x100000_1_0 i (idx_main_v57 i) (fun b => match b with
    | ⟨0, _⟩ => rfl
    | ⟨1, _⟩ => rfl)

def val_main_v58 (x1 : (⟨S2x1600000, .i32⟩ : BufTy).Contents (Elt F)) (x2 : (⟨S64x100000, .f32⟩ : BufTy).Contents (Elt F)) (x3 : (⟨S64, .f32⟩ : BufTy).Contents (Elt F)) : (⟨S64x64, .f32⟩ : BufTy).Contents (Elt F) :=
  Host.dotGeneral dot_S64x100000_S100000x64_S64x64_1_0_0_1_n_n none (val_main_v57 (F := F) x1 x2 x3) (val_main_v33 (F := F) x1 x2 x3)
theorem lhs_main_v58_0 (i : S64x64.Idx) (q : dot_S64x100000_S100000x64_S64x64_1_0_0_1_n_n.contr.Idx) :
    (dot_S64x100000_S100000x64_S64x64_1_0_0_1_n_n.lhsIdx i q 0).val = (i 0).val := by
  unfold DotDims.lhsIdx
  rw [dif_neg (show ¬(0 : Fin S64x100000.rank) ∈ dot_S64x100000_S100000x64_S64x64_1_0_0_1_n_n.lhsBatch by decide), dif_pos (show (0 : Fin S64x100000.rank) ∈ dot_S64x100000_S100000x64_S64x64_1_0_0_1_n_n.lhsNonContracting by decide)]
  rfl
theorem lhs_main_v58_1 (i : S64x64.Idx) (q : dot_S64x100000_S100000x64_S64x64_1_0_0_1_n_n.contr.Idx) :
    (dot_S64x100000_S100000x64_S64x64_1_0_0_1_n_n.lhsIdx i q 1).val = (q ⟨0, by decide⟩).val :=
  dot_S64x100000_S100000x64_S64x64_1_0_0_1_n_n.lhsIdx_val_of_single rfl i q
theorem rhs_main_v58_0 (i : S64x64.Idx) (q : dot_S64x100000_S100000x64_S64x64_1_0_0_1_n_n.contr.Idx) :
    (dot_S64x100000_S100000x64_S64x64_1_0_0_1_n_n.rhsIdx i q 0).val = (q ⟨0, by decide⟩).val :=
  dot_S64x100000_S100000x64_S64x64_1_0_0_1_n_n.rhsIdx_val_of_single rfl i q
theorem rhs_main_v58_1 (i : S64x64.Idx) (q : dot_S64x100000_S100000x64_S64x64_1_0_0_1_n_n.contr.Idx) :
    (dot_S64x100000_S100000x64_S64x64_1_0_0_1_n_n.rhsIdx i q 1).val = (i 1).val := by
  unfold DotDims.rhsIdx
  rw [dif_neg (show ¬(1 : Fin S100000x64.rank) ∈ dot_S64x100000_S100000x64_S64x64_1_0_0_1_n_n.rhsBatch by decide), dif_pos (show (1 : Fin S100000x64.rank) ∈ dot_S64x100000_S100000x64_S64x64_1_0_0_1_n_n.rhsNonContracting by decide)]
  rfl
abbrev lidx_main_v58 (i : S64x64.Idx) (k : Fin 100000) : S64x100000.Idx := fun a => match a with
  | ⟨0, _⟩ => ⟨(i 0).val, (i 0).isLt⟩
  | ⟨1, _⟩ => ⟨k.val, k.isLt⟩
abbrev ridx_main_v58 (i : S64x64.Idx) (k : Fin 100000) : S100000x64.Idx := fun a => match a with
  | ⟨0, _⟩ => ⟨k.val, k.isLt⟩
  | ⟨1, _⟩ => ⟨(i 1).val, (i 1).isLt⟩
theorem val_main_v58_apply (x1 : (⟨S2x1600000, .i32⟩ : BufTy).Contents (Elt Ideal)) (x2 : (⟨S64x100000, .f32⟩ : BufTy).Contents (Elt Ideal)) (x3 : (⟨S64, .f32⟩ : BufTy).Contents (Elt Ideal)) (i : S64x64.Idx) :
    val_main_v58 (F := Ideal) x1 x2 x3 i = ∑ k : Fin 100000, (val_main_v57 (F := Ideal) x1 x2 x3) (lidx_main_v58 i k) * (val_main_v33 (F := Ideal) x1 x2 x3) (ridx_main_v58 i k) := by
  unfold val_main_v58
  generalize val_main_v57 (F := Ideal) x1 x2 x3 = y0
  generalize val_main_v33 (F := Ideal) x1 x2 x3 = y1
  simp only [Host.dotGeneral]
  rw [Ideal.dotGeneral_apply, ← Equiv.sum_comp (ValueIdx.contrEquiv1 dot_S64x100000_S100000x64_S64x64_1_0_0_1_n_n 100000 rfl rfl).symm]
  refine Finset.sum_congr rfl fun k _ => ?_
  have hk := ValueIdx.contrEquiv1_symm_val dot_S64x100000_S100000x64_S64x64_1_0_0_1_n_n 100000 rfl rfl k
  have el : dot_S64x100000_S100000x64_S64x64_1_0_0_1_n_n.lhsIdx i ((ValueIdx.contrEquiv1 dot_S64x100000_S100000x64_S64x64_1_0_0_1_n_n 100000 rfl rfl).symm k) = lidx_main_v58 i k := funext fun a => Fin.ext (by
    match a with
    | ⟨0, _⟩ => exact lhs_main_v58_0 _ _
    | ⟨1, _⟩ => exact (lhs_main_v58_1 _ _).trans hk)
  have er : dot_S64x100000_S100000x64_S64x64_1_0_0_1_n_n.rhsIdx i ((ValueIdx.contrEquiv1 dot_S64x100000_S100000x64_S64x64_1_0_0_1_n_n 100000 rfl rfl).symm k) = ridx_main_v58 i k := funext fun a => Fin.ext (by
    match a with
    | ⟨0, _⟩ => exact (rhs_main_v58_0 _ _).trans hk
    | ⟨1, _⟩ => exact rhs_main_v58_1 _ _)
  rw [el, er]

def val_main_call0_v0 (x1 : (⟨S2x1600000, .i32⟩ : BufTy).Contents (Elt F)) (x2 : (⟨S64x100000, .f32⟩ : BufTy).Contents (Elt F)) (x3 : (⟨S64, .f32⟩ : BufTy).Contents (Elt F)) : (⟨S64x64, .f32⟩ : BufTy).Contents (Elt F) :=
  mulf (val_main_v58 (F := F) x1 x2 x3) (val_main_v58 (F := F) x1 x2 x3)

def val_main_call0_cst : (⟨S_, .f32⟩ : BufTy).Contents (Elt F) :=
  constant S_ .f32 0x00000000#32

def val_main_call0_v1 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.reduceAdd (val_main_call0_v0 (F := F) x1 x2 x3) (val_main_call0_cst (F := F)) reducesTo_S64x64_S_d0_1 h_S_

def val_main_v59 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.sqrt (val_main_call0_v1 (F := F) x1 x2 x3)

def val_main_v60 (x1 : (⟨S2x1600000, .i32⟩ : BufTy).Contents (Elt F)) (x2 : (⟨S64x100000, .f32⟩ : BufTy).Contents (Elt F)) (x3 : (⟨S64, .f32⟩ : BufTy).Contents (Elt F)) : (⟨S64x64, .f32⟩ : BufTy).Contents (Elt F) :=
  broadcastInDim S64x64 ![] bcast_S_S64x64 (val_main_v59 (F := F) x1 x2 x3)

def val_main_v61 (x1 : (⟨S2x1600000, .i32⟩ : BufTy).Contents (Elt F)) (x2 : (⟨S64x100000, .f32⟩ : BufTy).Contents (Elt F)) (x3 : (⟨S64, .f32⟩ : BufTy).Contents (Elt F)) : (⟨S64x64, .f32⟩ : BufTy).Contents (Elt F) :=
  Host.divf (val_main_v58 (F := F) x1 x2 x3) (val_main_v60 (F := F) x1 x2 x3)

def val_main_v62 : (⟨S64x64, .i32⟩ : BufTy).Contents (Elt F) :=
  iotaInDim S64x64 32 0

def val_main_v63 : (⟨S64x64, .i32⟩ : BufTy).Contents (Elt F) :=
  iotaInDim S64x64 32 1

def val_main_c_11 : (⟨S_, .i32⟩ : BufTy).Contents (Elt F) :=
  constantI S_ 32 0#32

def val_main_v64 : (⟨S64x64, .i32⟩ : BufTy).Contents (Elt F) :=
  broadcastInDim S64x64 ![] bcast_S_S64x64 (val_main_c_11 (F := F))

def val_main_v65 : (⟨S64x64, .i32⟩ : BufTy).Contents (Elt F) :=
  addi (val_main_v62 (F := F)) (val_main_v64 (F := F))

def val_main_v66 : (⟨S64x64, .i1⟩ : BufTy).Contents (Elt F) :=
  cmpi .eq (val_main_v65 (F := F)) (val_main_v63 (F := F))

def val_main_v67 : (⟨S64x64, .f32⟩ : BufTy).Contents (Elt F) :=
  uitofp .f32 (val_main_v66 (F := F))

def val_main_cst_12 : (⟨S_, .f32⟩ : BufTy).Contents (Elt F) :=
  constant S_ .f32 0x42800000#32

def val_main_v68 : (⟨S_, .f32⟩ : BufTy).Contents (Elt F) :=
  Host.sqrt (val_main_cst_12 (F := F))

def val_main_v69 : (⟨S64x64, .f32⟩ : BufTy).Contents (Elt F) :=
  broadcastInDim S64x64 ![] bcast_S_S64x64 (val_main_v68 (F := F))

def val_main_v70 : (⟨S64x64, .f32⟩ : BufTy).Contents (Elt F) :=
  Host.divf (val_main_v67 (F := F)) (val_main_v69 (F := F))

def val_main_v71 (x1 : (⟨S2x1600000, .i32⟩ : BufTy).Contents (Elt F)) (x2 : (⟨S64x100000, .f32⟩ : BufTy).Contents (Elt F)) (x3 : (⟨S64, .f32⟩ : BufTy).Contents (Elt F)) : (⟨S64x64, .f32⟩ : BufTy).Contents (Elt F) :=
  subf (val_main_v61 (F := F) x1 x2 x3) (val_main_v70 (F := F))

def val_main_call1_v0 (x1 : (⟨S2x1600000, .i32⟩ : BufTy).Contents (Elt F)) (x2 : (⟨S64x100000, .f32⟩ : BufTy).Contents (Elt F)) (x3 : (⟨S64, .f32⟩ : BufTy).Contents (Elt F)) : (⟨S64x64, .f32⟩ : BufTy).Contents (Elt F) :=
  mulf (val_main_v71 (F := F) x1 x2 x3) (val_main_v71 (F := F) x1 x2 x3)

def val_main_call1_cst : (⟨S_, .f32⟩ : BufTy).Contents (Elt F) :=
  constant S_ .f32 0x00000000#32

def val_main_call1_v1 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.reduceAdd (val_main_call1_v0 (F := F) x1 x2 x3) (val_main_call1_cst (F := F)) reducesTo_S64x64_S_d0_1 h_S_

def val_main_v72 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  Host.sqrt (val_main_call1_v1 (F := F) x1 x2 x3)

def val_main_v73 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) : (⟨S100000x320, .f32⟩ : BufTy).Contents (Elt F) :=
  concatenate S100000x320 1 [⟨S100000x256, (val_main_v22 (F := F) x0 x4 x5)⟩, ⟨S100000x64, (val_main_v33 (F := F) x1 x2 x3)⟩] concatenates_S100000x256_S100000x64_S100000x320_d1

def val_main_v74 (x6 : (⟨S16x320, .f32⟩ : BufTy).Contents (Elt F)) : (⟨S320x16, .f32⟩ : BufTy).Contents (Elt F) :=
  transpose S320x16 [1, 0] (x6) transposes_S16x320_S320x16_1_0

def val_main_v75 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) : (⟨S100000x16, .f32⟩ : BufTy).Contents (Elt F) :=
  Host.dotGeneral dot_S100000x320_S320x16_S100000x16_1_0_0_1_n_n none (val_main_v73 (F := F) x0 x1 x2 x3 x4 x5) (val_main_v74 (F := F) x6)
theorem lhs_main_v75_0 (i : S100000x16.Idx) (q : dot_S100000x320_S320x16_S100000x16_1_0_0_1_n_n.contr.Idx) :
    (dot_S100000x320_S320x16_S100000x16_1_0_0_1_n_n.lhsIdx i q 0).val = (i 0).val := by
  unfold DotDims.lhsIdx
  rw [dif_neg (show ¬(0 : Fin S100000x320.rank) ∈ dot_S100000x320_S320x16_S100000x16_1_0_0_1_n_n.lhsBatch by decide), dif_pos (show (0 : Fin S100000x320.rank) ∈ dot_S100000x320_S320x16_S100000x16_1_0_0_1_n_n.lhsNonContracting by decide)]
  rfl
theorem lhs_main_v75_1 (i : S100000x16.Idx) (q : dot_S100000x320_S320x16_S100000x16_1_0_0_1_n_n.contr.Idx) :
    (dot_S100000x320_S320x16_S100000x16_1_0_0_1_n_n.lhsIdx i q 1).val = (q ⟨0, by decide⟩).val :=
  dot_S100000x320_S320x16_S100000x16_1_0_0_1_n_n.lhsIdx_val_of_single rfl i q
theorem rhs_main_v75_0 (i : S100000x16.Idx) (q : dot_S100000x320_S320x16_S100000x16_1_0_0_1_n_n.contr.Idx) :
    (dot_S100000x320_S320x16_S100000x16_1_0_0_1_n_n.rhsIdx i q 0).val = (q ⟨0, by decide⟩).val :=
  dot_S100000x320_S320x16_S100000x16_1_0_0_1_n_n.rhsIdx_val_of_single rfl i q
theorem rhs_main_v75_1 (i : S100000x16.Idx) (q : dot_S100000x320_S320x16_S100000x16_1_0_0_1_n_n.contr.Idx) :
    (dot_S100000x320_S320x16_S100000x16_1_0_0_1_n_n.rhsIdx i q 1).val = (i 1).val := by
  unfold DotDims.rhsIdx
  rw [dif_neg (show ¬(1 : Fin S320x16.rank) ∈ dot_S100000x320_S320x16_S100000x16_1_0_0_1_n_n.rhsBatch by decide), dif_pos (show (1 : Fin S320x16.rank) ∈ dot_S100000x320_S320x16_S100000x16_1_0_0_1_n_n.rhsNonContracting by decide)]
  rfl
abbrev lidx_main_v75 (i : S100000x16.Idx) (k : Fin 320) : S100000x320.Idx := fun a => match a with
  | ⟨0, _⟩ => ⟨(i 0).val, (i 0).isLt⟩
  | ⟨1, _⟩ => ⟨k.val, k.isLt⟩
abbrev ridx_main_v75 (i : S100000x16.Idx) (k : Fin 320) : S320x16.Idx := fun a => match a with
  | ⟨0, _⟩ => ⟨k.val, k.isLt⟩
  | ⟨1, _⟩ => ⟨(i 1).val, (i 1).isLt⟩
theorem val_main_v75_apply (x0 : (⟨S100000x128, .f32⟩ : BufTy).Contents (Elt Ideal)) (x1 : (⟨S2x1600000, .i32⟩ : BufTy).Contents (Elt Ideal)) (x2 : (⟨S64x100000, .f32⟩ : BufTy).Contents (Elt Ideal)) (x3 : (⟨S64, .f32⟩ : BufTy).Contents (Elt Ideal)) (x4 : (⟨S256x128, .f32⟩ : BufTy).Contents (Elt Ideal)) (x5 : (⟨S256, .f32⟩ : BufTy).Contents (Elt Ideal)) (x6 : (⟨S16x320, .f32⟩ : BufTy).Contents (Elt Ideal)) (i : S100000x16.Idx) :
    val_main_v75 (F := Ideal) x0 x1 x2 x3 x4 x5 x6 i = ∑ k : Fin 320, (val_main_v73 (F := Ideal) x0 x1 x2 x3 x4 x5) (lidx_main_v75 i k) * (val_main_v74 (F := Ideal) x6) (ridx_main_v75 i k) := by
  unfold val_main_v75
  generalize val_main_v73 (F := Ideal) x0 x1 x2 x3 x4 x5 = y0
  generalize val_main_v74 (F := Ideal) x6 = y1
  simp only [Host.dotGeneral]
  rw [Ideal.dotGeneral_apply, ← Equiv.sum_comp (ValueIdx.contrEquiv1 dot_S100000x320_S320x16_S100000x16_1_0_0_1_n_n 320 rfl rfl).symm]
  refine Finset.sum_congr rfl fun k _ => ?_
  have hk := ValueIdx.contrEquiv1_symm_val dot_S100000x320_S320x16_S100000x16_1_0_0_1_n_n 320 rfl rfl k
  have el : dot_S100000x320_S320x16_S100000x16_1_0_0_1_n_n.lhsIdx i ((ValueIdx.contrEquiv1 dot_S100000x320_S320x16_S100000x16_1_0_0_1_n_n 320 rfl rfl).symm k) = lidx_main_v75 i k := funext fun a => Fin.ext (by
    match a with
    | ⟨0, _⟩ => exact lhs_main_v75_0 _ _
    | ⟨1, _⟩ => exact (lhs_main_v75_1 _ _).trans hk)
  have er : dot_S100000x320_S320x16_S100000x16_1_0_0_1_n_n.rhsIdx i ((ValueIdx.contrEquiv1 dot_S100000x320_S320x16_S100000x16_1_0_0_1_n_n 320 rfl rfl).symm k) = ridx_main_v75 i k := funext fun a => Fin.ext (by
    match a with
    | ⟨0, _⟩ => exact (rhs_main_v75_0 _ _).trans hk
    | ⟨1, _⟩ => exact rhs_main_v75_1 _ _)
  rw [el, er]

def val_main_v76 (x7 : (⟨S16, .f32⟩ : BufTy).Contents (Elt F)) : (⟨S1x16, .f32⟩ : BufTy).Contents (Elt F) :=
  broadcastInDim S1x16 ![1] bcast_S16_S1x16_1 (x7)
abbrev idx_main_v76 (i : S1x16.Idx) : S16.Idx := fun a => match a with
  | ⟨0, _⟩ => ⟨(i 1).val, (i 1).isLt⟩
theorem val_main_v76_apply (x7 : (⟨S16, .f32⟩ : BufTy).Contents (Elt F)) (i : S1x16.Idx) :
    val_main_v76 (F := F) x7 i = x7 (idx_main_v76 i) := by
  unfold val_main_v76
  exact broadcastInDim_apply _ bcast_S16_S1x16_1 x7 i (idx_main_v76 i) (fun a => match a with
    | ⟨0, _⟩ => by show (i 1).val = if (16 : Nat) = 1 then 0 else (i 1).val; rw [if_neg (by decide)])

def val_main_v77 (x7 : (⟨S16, .f32⟩ : BufTy).Contents (Elt F)) : (⟨S100000x16, .f32⟩ : BufTy).Contents (Elt F) :=
  broadcastInDim S100000x16 ![0, 1] bcast_S1x16_S100000x16_0_1 (val_main_v76 (F := F) x7)
abbrev idx_main_v77 (i : S100000x16.Idx) : S1x16.Idx := fun a => match a with
  | ⟨0, _⟩ => ⟨0, Nat.one_pos⟩
  | ⟨1, _⟩ => ⟨(i 1).val, (i 1).isLt⟩
theorem val_main_v77_apply (x7 : (⟨S16, .f32⟩ : BufTy).Contents (Elt F)) (i : S100000x16.Idx) :
    val_main_v77 (F := F) x7 i = val_main_v76 (F := F) x7 (idx_main_v77 i) := by
  unfold val_main_v77
  generalize val_main_v76 (F := F) x7 = y
  exact broadcastInDim_apply _ bcast_S1x16_S100000x16_0_1 y i (idx_main_v77 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v78 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x16, .f32⟩ : BufTy).Contents (Elt F) :=
  addf (val_main_v75 (F := F) x0 x1 x2 x3 x4 x5 x6) (val_main_v77 (F := F) x7)
theorem val_main_v78_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x16.Idx) :
    val_main_v78 (F := F) x0 x1 x2 x3 x4 x5 x6 x7 i = FloatOps.addf (val_main_v75 (F := F) x0 x1 x2 x3 x4 x5 x6 i) (val_main_v77 (F := F) x7 i) := rfl

def val_main_call2_cst : (⟨S_, .f32⟩ : BufTy).Contents (Elt F) :=
  constant S_ .f32 0xFF800000#32

def val_main_call2_v0 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000, .f32⟩ : BufTy).Contents (Elt F) :=
  Host.reduce FloatOps.maximumf (val_main_v78 (F := F) x0 x1 x2 x3 x4 x5 x6 x7) (val_main_call2_cst (F := F)) reducesTo_S100000x16_S100000_d1 h_S_

def val_main_call2_cst_0 : (⟨S_, .f32⟩ : BufTy).Contents (Elt F) :=
  constant S_ .f32 0xFF800000#32

def val_main_call2_v1 : (⟨S100000, .f32⟩ : BufTy).Contents (Elt F) :=
  broadcastInDim S100000 ![] bcast_S_S100000 (val_main_call2_cst_0 (F := F))
abbrev idx_main_call2_v1 (i : S100000.Idx) : S_.Idx := fun a => a.elim0
theorem val_main_call2_v1_apply (i : S100000.Idx) :
    val_main_call2_v1 (F := F) i = val_main_call2_cst_0 (F := F) (idx_main_call2_v1 i) := by
  unfold val_main_call2_v1
  generalize val_main_call2_cst_0 (F := F) = y
  exact broadcastInDim_apply _ bcast_S_S100000 y i (idx_main_call2_v1 i) (fun a => a.elim0)

def val_main_call2_v2 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000, .f32⟩ : BufTy).Contents (Elt F) :=
  maximumf (val_main_call2_v1 (F := F)) (val_main_call2_v0 (F := F) x0 x1 x2 x3 x4 x5 x6 x7)
theorem val_main_call2_v2_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000.Idx) :
    val_main_call2_v2 (F := F) x0 x1 x2 x3 x4 x5 x6 x7 i = FloatOps.maximumf (val_main_call2_v1 (F := F) i) (val_main_call2_v0 (F := F) x0 x1 x2 x3 x4 x5 x6 x7 i) := rfl

def val_main_call2_v3 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x1, .f32⟩ : BufTy).Contents (Elt F) :=
  broadcastInDim S100000x1 ![0] bcast_S100000_S100000x1_0 (val_main_call2_v2 (F := F) x0 x1 x2 x3 x4 x5 x6 x7)
abbrev idx_main_call2_v3 (i : S100000x1.Idx) : S100000.Idx := fun a => match a with
  | ⟨0, _⟩ => ⟨(i 0).val, (i 0).isLt⟩
theorem val_main_call2_v3_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x1.Idx) :
    val_main_call2_v3 (F := F) x0 x1 x2 x3 x4 x5 x6 x7 i = val_main_call2_v2 (F := F) x0 x1 x2 x3 x4 x5 x6 x7 (idx_main_call2_v3 i) := by
  unfold val_main_call2_v3
  generalize val_main_call2_v2 (F := F) x0 x1 x2 x3 x4 x5 x6 x7 = y
  exact broadcastInDim_apply _ bcast_S100000_S100000x1_0 y i (idx_main_call2_v3 i) (fun a => match a with
    | ⟨0, _⟩ => by show (i 0).val = if (100000 : Nat) = 1 then 0 else (i 0).val; rw [if_neg (by decide)])

def val_main_call2_v4 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x16, .f32⟩ : BufTy).Contents (Elt F) :=
  broadcastInDim S100000x16 ![0, 1] bcast_S100000x1_S100000x16_0_1 (val_main_call2_v3 (F := F) x0 x1 x2 x3 x4 x5 x6 x7)
abbrev idx_main_call2_v4 (i : S100000x16.Idx) : S100000x1.Idx := fun a => match a with
  | ⟨0, _⟩ => ⟨(i 0).val, (i 0).isLt⟩
  | ⟨1, _⟩ => ⟨0, Nat.one_pos⟩
theorem val_main_call2_v4_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x16.Idx) :
    val_main_call2_v4 (F := F) x0 x1 x2 x3 x4 x5 x6 x7 i = val_main_call2_v3 (F := F) x0 x1 x2 x3 x4 x5 x6 x7 (idx_main_call2_v4 i) := by
  unfold val_main_call2_v4
  generalize val_main_call2_v3 (F := F) x0 x1 x2 x3 x4 x5 x6 x7 = y
  exact broadcastInDim_apply _ bcast_S100000x1_S100000x16_0_1 y i (idx_main_call2_v4 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_call2_v5 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x16, .f32⟩ : BufTy).Contents (Elt F) :=
  subf (val_main_v78 (F := F) x0 x1 x2 x3 x4 x5 x6 x7) (val_main_call2_v4 (F := F) x0 x1 x2 x3 x4 x5 x6 x7)
theorem val_main_call2_v5_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x16.Idx) :
    val_main_call2_v5 (F := F) x0 x1 x2 x3 x4 x5 x6 x7 i = FloatOps.subf (val_main_v78 (F := F) x0 x1 x2 x3 x4 x5 x6 x7 i) (val_main_call2_v4 (F := F) x0 x1 x2 x3 x4 x5 x6 x7 i) := rfl

def val_main_call2_v6 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x16, .f32⟩ : BufTy).Contents (Elt F) :=
  Host.exp (val_main_call2_v5 (F := F) x0 x1 x2 x3 x4 x5 x6 x7)
theorem val_main_call2_v6_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x16.Idx) :
    val_main_call2_v6 (F := F) x0 x1 x2 x3 x4 x5 x6 x7 i = FloatOps.hostUnary .exp (val_main_call2_v5 (F := F) x0 x1 x2 x3 x4 x5 x6 x7 i) := rfl

def val_main_call2_cst_1 : (⟨S_, .f32⟩ : BufTy).Contents (Elt F) :=
  constant S_ .f32 0x00000000#32

def val_main_call2_v7 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000, .f32⟩ : BufTy).Contents (Elt F) :=
  Host.reduceAdd (val_main_call2_v6 (F := F) x0 x1 x2 x3 x4 x5 x6 x7) (val_main_call2_cst_1 (F := F)) reducesTo_S100000x16_S100000_d1 h_S_
abbrev idx_main_call2_v7 (i : S100000.Idx) (k : Fin 16) : S100000x16.Idx := fun a => match a with
  | ⟨0, _⟩ => ⟨(i 0).val, (i 0).isLt⟩
  | ⟨1, _⟩ => ⟨k.val, k.isLt⟩
theorem val_main_call2_v7_apply (x0 : (⟨S100000x128, .f32⟩ : BufTy).Contents (Elt Ideal)) (x1 : (⟨S2x1600000, .i32⟩ : BufTy).Contents (Elt Ideal)) (x2 : (⟨S64x100000, .f32⟩ : BufTy).Contents (Elt Ideal)) (x3 : (⟨S64, .f32⟩ : BufTy).Contents (Elt Ideal)) (x4 : (⟨S256x128, .f32⟩ : BufTy).Contents (Elt Ideal)) (x5 : (⟨S256, .f32⟩ : BufTy).Contents (Elt Ideal)) (x6 : (⟨S16x320, .f32⟩ : BufTy).Contents (Elt Ideal)) (x7 : (⟨S16, .f32⟩ : BufTy).Contents (Elt Ideal)) (i : S100000.Idx) :
    val_main_call2_v7 (F := Ideal) x0 x1 x2 x3 x4 x5 x6 x7 i = (val_main_call2_cst_1 (F := Ideal)) (Shape.Idx.first h_S_) + ∑ k : Fin 16, (val_main_call2_v6 (F := Ideal) x0 x1 x2 x3 x4 x5 x6 x7) (idx_main_call2_v7 i k) := by
  unfold val_main_call2_v7
  generalize val_main_call2_v6 (F := Ideal) x0 x1 x2 x3 x4 x5 x6 x7 = y0
  simp only [Host.reduceAdd, Ideal.hostReduceAdd_def]
  rw [Ideal.hostReduceAdd_single reducesTo_S100000x16_S100000_d1 (by decide)]
  refine congrArg (_ + ·) (Finset.sum_congr rfl fun k _ => ?_)
  exact congrArg y0 (funext fun a => Fin.ext (by match a with | ⟨0, _⟩ => rfl | ⟨1, _⟩ => rfl))

def val_main_call2_v8 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x1, .f32⟩ : BufTy).Contents (Elt F) :=
  broadcastInDim S100000x1 ![0] bcast_S100000_S100000x1_0 (val_main_call2_v7 (F := F) x0 x1 x2 x3 x4 x5 x6 x7)
abbrev idx_main_call2_v8 (i : S100000x1.Idx) : S100000.Idx := fun a => match a with
  | ⟨0, _⟩ => ⟨(i 0).val, (i 0).isLt⟩
theorem val_main_call2_v8_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x1.Idx) :
    val_main_call2_v8 (F := F) x0 x1 x2 x3 x4 x5 x6 x7 i = val_main_call2_v7 (F := F) x0 x1 x2 x3 x4 x5 x6 x7 (idx_main_call2_v8 i) := by
  unfold val_main_call2_v8
  generalize val_main_call2_v7 (F := F) x0 x1 x2 x3 x4 x5 x6 x7 = y
  exact broadcastInDim_apply _ bcast_S100000_S100000x1_0 y i (idx_main_call2_v8 i) (fun a => match a with
    | ⟨0, _⟩ => by show (i 0).val = if (100000 : Nat) = 1 then 0 else (i 0).val; rw [if_neg (by decide)])

def val_main_call2_v9 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x1, .f32⟩ : BufTy).Contents (Elt F) :=
  Host.log (val_main_call2_v8 (F := F) x0 x1 x2 x3 x4 x5 x6 x7)
theorem val_main_call2_v9_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x1.Idx) :
    val_main_call2_v9 (F := F) x0 x1 x2 x3 x4 x5 x6 x7 i = FloatOps.hostUnary .log (val_main_call2_v8 (F := F) x0 x1 x2 x3 x4 x5 x6 x7 i) := rfl

def val_main_call2_v10 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x16, .f32⟩ : BufTy).Contents (Elt F) :=
  broadcastInDim S100000x16 ![0, 1] bcast_S100000x1_S100000x16_0_1 (val_main_call2_v9 (F := F) x0 x1 x2 x3 x4 x5 x6 x7)
abbrev idx_main_call2_v10 (i : S100000x16.Idx) : S100000x1.Idx := fun a => match a with
  | ⟨0, _⟩ => ⟨(i 0).val, (i 0).isLt⟩
  | ⟨1, _⟩ => ⟨0, Nat.one_pos⟩
theorem val_main_call2_v10_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x16.Idx) :
    val_main_call2_v10 (F := F) x0 x1 x2 x3 x4 x5 x6 x7 i = val_main_call2_v9 (F := F) x0 x1 x2 x3 x4 x5 x6 x7 (idx_main_call2_v10 i) := by
  unfold val_main_call2_v10
  generalize val_main_call2_v9 (F := F) x0 x1 x2 x3 x4 x5 x6 x7 = y
  exact broadcastInDim_apply _ bcast_S100000x1_S100000x16_0_1 y i (idx_main_call2_v10 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v79 (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) : (⟨S100000x16, .f32⟩ : BufTy).Contents (Elt F) :=
  subf (val_main_call2_v5 (F := F) x0 x1 x2 x3 x4 x5 x6 x7) (val_main_call2_v10 (F := F) x0 x1 x2 x3 x4 x5 x6 x7)
theorem val_main_v79_apply (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F)) (i : S100000x16.Idx) :
    val_main_v79 (F := F) x0 x1 x2 x3 x4 x5 x6 x7 i = FloatOps.subf (val_main_call2_v5 (F := F) x0 x1 x2 x3 x4 x5 x6 x7 i) (val_main_call2_v10 (F := F) x0 x1 x2 x3 x4 x5 x6 x7 i) := rfl

def val_main_v80 (x1 : (⟨S2x1600000, .i32⟩ : BufTy).Contents (Elt F)) (x2 : (⟨S64x100000, .f32⟩ : BufTy).Contents (Elt F)) (x3 : (⟨S64, .f32⟩ : BufTy).Contents (Elt F)) : (⟨S_, .f32⟩ : BufTy).Contents (Elt F) :=
  addf (val_main_v56 (F := F) x1 x2 x3) (val_main_v72 (F := F) x1 x2 x3)

end Cert.ReferenceIdeal.ReadP

end
-- ==== Proof.KI.GlueTail.lean ====
import proofs.«138361_j81398220194162_1_alg».proof.Proof.KI.Run
import proofs.«138361_j81398220194162_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

theorem tail_keep_z : Hand.W11 m ρ c (Proc.devRef .tc main_v23_1) = Hand.W4 m ρ c (Proc.devRef .tc main_v23_1) :=
  (StableHlo.after_of_writes_sub hostOps3_4 (Hand.W10 m ρ c) hostOps3_4_writes (by decide : main_v23_1 ∉ hostOps3_4_W)).trans <|
  (StableHlo.after_of_writes_sub hostOps3_3 (Hand.W9 m ρ c) hostOps3_3_writes (by decide : main_v23_1 ∉ hostOps3_3_W)).trans <|
  (StableHlo.after_of_writes_sub hostOps3_2 (Hand.W8 m ρ c) hostOps3_2_writes (by decide : main_v23_1 ∉ hostOps3_2_W)).trans <|
  (StableHlo.after_of_writes_sub hostOps3_1 (Hand.W7 m ρ c) hostOps3_1_writes (by decide : main_v23_1 ∉ hostOps3_1_W)).trans <|
  (StableHlo.after_of_writes_sub hostOps3 (Hand.W6 m ρ c) hostOps3_writes (by decide : main_v23_1 ∉ hostOps3_W)).trans <|
  (Hand.W6_of_ne m ρ c main_v23_1 (by decide)).trans <|
  (StableHlo.after_of_writes_sub hostOps2 (Hand.W4 m ρ c) hostOps2_writes (by decide : main_v23_1 ∉ hostOps2_W))

theorem scalar_of_1x1 (x : S1x1.Idx → Elt Ideal .f32) (h : S1x1.ShapeCasts S_) (y : S_.Idx → Elt Ideal .f32)
    (hxy : x (ix2 (0 : Fin 1) (0 : Fin 1)) = y ix0) : shapeCast S_ x h = y := by
  funext j
  obtain rfl := eq_ix0 j
  exact (shapeCast_apply x h ix0 (ix2 (0 : Fin 1) (0 : Fin 1)) (by decide)).trans hxy

set_option maxHeartbeats 4000000 in
theorem tail_loss
    (hcut : Hand.W6 m ρ c (Proc.devRef .tc main_v39_0) (ix2 (0 : Fin 1) (0 : Fin 1)) = Cert.ReferenceIdeal.ReadP.val_main_v45 (m ((c.tc : Thread nD τ).loc main_arg1)) (m ((c.tc : Thread nD τ).loc main_arg2)) (m ((c.tc : Thread nD τ).loc main_arg3)) ix0)
    (hdt : Hand.W6 m ρ c (Proc.devRef .tc main_v39_1) (ix2 (0 : Fin 1) (0 : Fin 1)) = Cert.ReferenceIdeal.ReadP.val_main_v54 (m ((c.tc : Thread nD τ).loc main_arg1)) (m ((c.tc : Thread nD τ).loc main_arg2)) (m ((c.tc : Thread nD τ).loc main_arg3)) ix0)
    (hG : Hand.W6 m ρ c (Proc.devRef .tc main_v39_2) = Cert.ReferenceIdeal.ReadP.val_main_v58 (m ((c.tc : Thread nD τ).loc main_arg1)) (m ((c.tc : Thread nD τ).loc main_arg2)) (m ((c.tc : Thread nD τ).loc main_arg3))) :
    Hand.W11 m ρ c (Proc.devRef .tc main_v58) = Cert.ReferenceIdeal.ReadP.val_main_v80 (m ((c.tc : Thread nD τ).loc main_arg1)) (m ((c.tc : Thread nD τ).loc main_arg2)) (m ((c.tc : Thread nD τ).loc main_arg3)) := by
  have h0 := scalar_of_1x1 (Hand.W6 m ρ c (Proc.devRef .tc main_v39_0)) shapeCasts_S1x1_S_ (Cert.ReferenceIdeal.ReadP.val_main_v45 (m ((c.tc : Thread nD τ).loc main_arg1)) (m ((c.tc : Thread nD τ).loc main_arg2)) (m ((c.tc : Thread nD τ).loc main_arg3))) hcut
  have h1 := scalar_of_1x1 (Hand.W6 m ρ c (Proc.devRef .tc main_v39_1)) shapeCasts_S1x1_S_ (Cert.ReferenceIdeal.ReadP.val_main_v54 (m ((c.tc : Thread nD τ).loc main_arg1)) (m ((c.tc : Thread nD τ).loc main_arg2)) (m ((c.tc : Thread nD τ).loc main_arg3))) hdt
  show StableHlo.after hostOps3_4 (StableHlo.after hostOps3_3 (StableHlo.after hostOps3_2 (StableHlo.after hostOps3_1
    (StableHlo.after hostOps3 (Hand.W6 m ρ c))))) (Proc.devRef .tc main_v58) = _
  after_results
  unfold Cert.ReferenceIdeal.ReadP.val_main_v80 Cert.ReferenceIdeal.ReadP.val_main_v56 Cert.ReferenceIdeal.ReadP.val_main_v55 Cert.ReferenceIdeal.ReadP.val_main_v72 Cert.ReferenceIdeal.ReadP.val_main_call1_v1 Cert.ReferenceIdeal.ReadP.val_main_call1_v0 Cert.ReferenceIdeal.ReadP.val_main_call1_cst Cert.ReferenceIdeal.ReadP.val_main_v71 Cert.ReferenceIdeal.ReadP.val_main_v70 Cert.ReferenceIdeal.ReadP.val_main_v69 Cert.ReferenceIdeal.ReadP.val_main_v68 Cert.ReferenceIdeal.ReadP.val_main_cst_12 Cert.ReferenceIdeal.ReadP.val_main_v67 Cert.ReferenceIdeal.ReadP.val_main_v66 Cert.ReferenceIdeal.ReadP.val_main_v65 Cert.ReferenceIdeal.ReadP.val_main_v64 Cert.ReferenceIdeal.ReadP.val_main_c_11 Cert.ReferenceIdeal.ReadP.val_main_v63 Cert.ReferenceIdeal.ReadP.val_main_v62 Cert.ReferenceIdeal.ReadP.val_main_v61 Cert.ReferenceIdeal.ReadP.val_main_v60 Cert.ReferenceIdeal.ReadP.val_main_v59 Cert.ReferenceIdeal.ReadP.val_main_call0_v1 Cert.ReferenceIdeal.ReadP.val_main_call0_v0 Cert.ReferenceIdeal.ReadP.val_main_call0_cst
  rw [← h0, ← h1, ← hG]
  rfl

end Cert.KernelIdeal.Glue

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) : Type := (⟨2, ![a, b]⟩ : Shape).Idx → EReal

abbrev negInf : EReal := Ideal.ofBits .f32 0xFF800000#32

def rowMax {n : Nat} (a : Fin n → EReal) : EReal :=
  max negInf ((Finset.univ : Finset (Fin n)).fold max negInf a)

def expSum {n : Nat} (a : Fin n → EReal) : EReal := ∑ k : Fin n, Ideal.exp (a k - rowMax a)

def smax {n : Nat} (a : Fin n → EReal) (j : Fin n) : EReal := Ideal.div (Ideal.exp (a j - rowMax a)) (expSum a)

def lsmax {n : Nat} (a : Fin n → EReal) (j : Fin n) : EReal := (a j - rowMax a) - Ideal.log (expSum a)

def dense (X : Mat 100000 128) (Wt : Mat 128 256) (B : Mat 1 256) (r : Fin 100000) (j : Fin 256) : EReal :=
  (∑ k : Fin 128, X (ix2 r k) * Wt (ix2 k j)) + B (ix2 0 j)

def soft (XA : Mat 100000 64) (r : Fin 100000) (j : Fin 64) : EReal := smax (fun k => XA (ix2 r k)) j

def joined (XX : Mat 100000 256) (XA : Mat 100000 64) (r : Fin 100000) (k : Fin 320) : EReal :=
  if h : k.val < 256 then XX (ix2 r ⟨k.val, h⟩) else soft XA r ⟨k.val - 256, by omega⟩

def logits (XX : Mat 100000 256) (XA : Mat 100000 64) (Wt : Mat 320 16) (B : Mat 1 16) (r : Fin 100000) (j : Fin 16) : EReal :=
  (∑ k : Fin 320, joined XX XA r k * Wt (ix2 k j)) + B (ix2 0 j)

def zout (XX : Mat 100000 256) (XA : Mat 100000 64) (Wt : Mat 320 16) (B : Mat 1 16) (r : Fin 100000) (j : Fin 16) : EReal :=
  lsmax (fun k => logits XX XA Wt B r k) j

def cut (S AS : Mat 100000 64) : EReal := ∑ i : (⟨2, ![100000, 64]⟩ : Shape).Idx, S i * AS i

def dterm (S : Mat 100000 64) (D : Mat 100000 1) : EReal :=
  ∑ i : (⟨2, ![100000, 64]⟩ : Shape).Idx, D (ix2 (i 0) 0) * S i * S i

def gram (S : Mat 100000 64) (i j : Fin 64) : EReal := ∑ r : Fin 100000, S (ix2 r i) * S (ix2 r j)

end Cert.Spec

end
-- ==== Proof.KI.Val0.lean ====
import proofs.«138361_j81398220194162_1_alg».proof.Proof.KI.R0
import proofs.«138361_j81398220194162_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

theorem lhs_mm0_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_mm0_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_mm0_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_mm0_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

theorem pay0_apply (x0 : Vec Ideal S5000x128 .f32) (x1 : Vec Ideal S128x256 .f32) (x2 : Vec Ideal S1x256 .f32) (p : Fin 5000) (q : Fin 256) :
    k0_pay1 x0 x1 x2 (ix2 p q) = (∑ k : Fin 128, x0 (ix2 p k) * x1 (ix2 k q)) + x2 (ix2 (0 : Fin 1) q) := by
  unfold k0_pay1
  simp only [truncf_apply, addf_apply, shapeCast_self]
  rw [broadcastTo_apply x2 broadcasts_S1x256_S5000x256 (ix2 p q) (ix2 (0 : Fin 1) q) (by
    intro a
    match a with
    | ⟨0, _⟩ => rfl
    | ⟨1, _⟩ => rfl)]
  simp only [matmul]
  rw [Ideal.matmul_constant_zero_apply, ← Equiv.sum_comp (contrEquiv1 dot_S5000x128_S128x256_S5000x256_1_0_0_1_n_n 128 rfl rfl).symm]
  refine congrArg (· + x2 (ix2 (0 : Fin 1) q)) (Finset.sum_congr rfl fun k _ => ?_)
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]
  rfl

theorem dense_of_block (X : Cert.Spec.Mat 100000 128) (Wt : Cert.Spec.Mat 128 256) (B : Cert.Spec.Mat 1 256)
    (e0 : S5000x128.Idx → S100000x128.Idx) (e1 : S128x256.Idx → S128x256.Idx) (e2 : S1x256.Idx → S1x256.Idx)
    (i3 : S100000x256.Idx) (p : Fin 5000) (q : Fin 256) (r : Fin 100000) (h3 : i3 = ix2 r q)
    (h0 : ∀ k : Fin 128, e0 (ix2 p k) = ix2 r k) (h1 : ∀ k : Fin 128, e1 (ix2 k q) = ix2 k q)
    (h2 : e2 (ix2 (0 : Fin 1) q) = ix2 (0 : Fin 1) q) :
    (∑ k : Fin 128, X (e0 (ix2 p k)) * Wt (e1 (ix2 k q))) + B (e2 (ix2 (0 : Fin 1) q)) = Cert.Spec.dense X Wt B (i3 0) (i3 1) := by
  subst h3
  simp only [h0, h1, h2]
  rfl

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

theorem idx_onto0 : ∀ q0 : Fin 20, ∃ t : Fin cfg0.N, win0_3.index t = ![q0.val, 0] :=
  (by decide +kernel : ∀ q0 : Fin 20, ∃ t : Fin grid0.N, win0_3.index t = ![q0.val, 0])

theorem flushed0_eq (c : Dev nD) (t : Fin cfg0.N) :
    (dat0 V c).flushed 3 t = ((cfg0.win 3).blk t).view.read (Elt Ideal)
      (fun i : S100000x256.Idx => Cert.Spec.dense (V c main_arg0) (V c main_v18) (V c main_v19) (i 0) (i 1)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x256) hz0, View.ld_unit_zero (S := S1x256) hz0]
  obtain ⟨e00, e01, e10, e11, e20, e21, e31, e30⟩ := idx_facts0 t
  funext j
  obtain ⟨p, q, rfl⟩ : ∃ (p : Fin 5000) (q : Fin 256), j = ix2 p q := ⟨j 0, j 1, eq_ix2 j⟩
  refine (pay0_apply _ _ _ p q).trans ?_
  have hp : p.val < 5000 := p.isLt
  have h3 : ((cfg0.win 3).blk t).view.emb (ix2 p q) = ix2 (⟨win0_3.index t (0 : Fin 2) * 5000 + p.val, by omega⟩ : Fin 100000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 256 + 1 * q.val = q.val; omega
  have h0 : ∀ k : Fin 128, ((cfg0.win 0).blk t).view.emb (ix2 p k) = ix2 (⟨win0_3.index t (0 : Fin 2) * 5000 + p.val, by omega⟩ : Fin 100000) k := fun k => by
    funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 256 + 1 * q.val = q.val; omega
  exact dense_of_block (V c main_arg0) (V c main_v18) (V c main_v19) ((cfg0.win 0).blk t).view.emb ((cfg0.win 1).blk t).view.emb
    ((cfg0.win 2).blk t).view.emb (((cfg0.win 3).blk t).view.emb (ix2 p q)) p q _ h3 h0 h1 h2

theorem mem_blk0 (t : Fin cfg0.N) (i : S100000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v20).slice (win0_3.rect t)).set ↔ _
  rw [View.set_slice_whole, Rect.mem_set_unit]
  exact Iff.rfl

theorem cover0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

theorem final0_arr (c : Dev nD) :
    (dat0 V c).arrAt 3 cfg0.N = fun i : S100000x256.Idx => Cert.Spec.dense (V c main_arg0) (V c main_v18) (V c main_v19) (i 0) (i 1) :=
  (dat0 V c).arrAt_eq_of_cover 3 _ (fun t _ => flushed0_eq V c t) cover0

theorem final0 (c : Dev nD) (r : Fin 100000) (j : Fin 256) :
    (dat0 V c).arrAt 3 cfg0.N (ix2 r j) = Cert.Spec.dense (V c main_arg0) (V c main_v18) (V c main_v19) r j :=
  congrFun (final0_arr V c) (ix2 r j)

end Cert.KernelIdeal.Val

end
-- ==== Proof.KI.Pay1.lean ====
import proofs.«138361_j81398220194162_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«138361_j81398220194162_1_alg».proof.Proof.Spec

set_option maxRecDepth 16384

noncomputable section

namespace Cert.KernelIdeal.Val

open Cert.KernelIdeal Cert.KernelIdeal.Gen
open Idealize.ShloMosaic Idealize.ShloMosaic.ValueIdx

theorem vexp_apply {s : Shape} {φ : FTy} (a : FVec Ideal s φ) (i : s.Idx) : exp a i = Ideal.exp (a i) := rfl

section Rows
variable {n : Nat}

theorem lift_row (h : Shape.Reduces ⟨2, ![5000, n]⟩ [1] S5000) (r : Fin 5000) (k : Fin n) :
    h.lift (ix1 r) k = ix2 r k := by
  funext a; apply Fin.ext
  match a with
  | ⟨0, _⟩ => rfl
  | ⟨1, _⟩ => rfl

theorem rowmax_apply (x : FVec Ideal ⟨2, ![5000, n]⟩ .f32) (h : Shape.Reduces ⟨2, ![5000, n]⟩ [1] S5000)
    (hφ : FKind.Formats .f32) (hacc : (0xFF800000#32 : BitVec 32) = 0xFF800000#32) (r : Fin 5000) :
    multiReduction .maximumf [1] S5000 x 0xFF800000#32 h hφ hacc (ix1 r)
      = (Finset.univ : Finset (Fin n)).fold max (Ideal.ofBits .f32 0xFF800000#32) (fun k => x (ix2 r k)) := by
  refine (Ideal.multiReduction_maximumf_single x _ h hφ hacc (ix1 r)).trans ?_
  congr 1
  funext k
  exact congrArg x (lift_row h r k)

theorem rowsum_apply (x : FVec Ideal ⟨2, ![5000, n]⟩ .f32) (h : Shape.Reduces ⟨2, ![5000, n]⟩ [1] S5000)
    (hφ : FKind.Formats .f32) (hacc : (0x00000000#32 : BitVec 32) = 0x00000000#32) (r : Fin 5000) :
    multiReduction .add [1] S5000 x 0x00000000#32 h hφ hacc (ix1 r) = ∑ k : Fin n, x (ix2 r k) := by
  refine (Ideal.multiReduction_add_single x _ h hφ hacc (ix1 r)).trans ?_
  exact Finset.sum_congr rfl fun k _ => congrArg x (lift_row h r k)

theorem col_apply {α : Type} (v : S5000.Idx → α) (h1 : S5000.ShapeCasts S5000x1) (h2 : S5000x1.Broadcasts ⟨2, ![5000, n]⟩)
    (r : Fin 5000) (j : Fin n) :
    broadcastTo ⟨2, ![5000, n]⟩ (shapeCast S5000x1 v h1) h2 (ix2 r j) = v (ix1 r) := by
  refine (broadcastTo_apply _ _ (ix2 r j) (ix2 r (0 : Fin 1)) ?_).trans ?_
  · intro a
    match a with
    | ⟨0, _⟩ => rfl
    | ⟨1, _⟩ => rfl
  · exact shapeCast_apply v _ _ (ix1 r) (by rw [Shape.rowMajor_val_one, Shape.rowMajor_val_two]; show r.val = r.val * 1 + 0; omega)

end Rows

theorem pay1_apply (x : Vec Ideal S5000x64 .f32) (r : Fin 5000) (j : Fin 64) :
    k1_pay1 x (ix2 r j) = Cert.Spec.smax (fun k => x (ix2 r k)) j := by
  unfold k1_pay1
  simp only [shapeCast_self]
  simp only [divf_apply, vexp_apply, subf_apply, col_apply, maximumf_apply, broadcast_apply]
  rw [rowmax_apply (n := 64) x reduces_S5000x64_S5000 _ _ r]
  rw [rowsum_apply (n := 64) _ reduces_S5000x64_S5000 _ _ r]
  simp only [vexp_apply, subf_apply, col_apply, maximumf_apply, broadcast_apply]
  rw [rowmax_apply (n := 64) x reduces_S5000x64_S5000 _ _ r]
  rfl

theorem lhs_proj_0 (i : S5000x16.Idx) (q : dot_S5000x320_S320x16_S5000x16_1_0_0_1_n_n.contr.Idx) :
    (dot_S5000x320_S320x16_S5000x16_1_0_0_1_n_n.lhsIdx i q 0).val = (i 0).val := by
  unfold DotDims.lhsIdx
  rw [dif_neg (show ¬(0 : Fin S5000x320.rank) ∈ dot_S5000x320_S320x16_S5000x16_1_0_0_1_n_n.lhsBatch by decide),
    dif_pos (show (0 : Fin S5000x320.rank) ∈ dot_S5000x320_S320x16_S5000x16_1_0_0_1_n_n.lhsNonContracting by decide)]
  rfl
theorem lhs_proj_1 (i : S5000x16.Idx) (q : dot_S5000x320_S320x16_S5000x16_1_0_0_1_n_n.contr.Idx) :
    (dot_S5000x320_S320x16_S5000x16_1_0_0_1_n_n.lhsIdx i q 1).val = (q ⟨0, by decide⟩).val :=
  dot_S5000x320_S320x16_S5000x16_1_0_0_1_n_n.lhsIdx_val_of_single rfl i q
theorem rhs_proj_0 (i : S5000x16.Idx) (q : dot_S5000x320_S320x16_S5000x16_1_0_0_1_n_n.contr.Idx) :
    (dot_S5000x320_S320x16_S5000x16_1_0_0_1_n_n.rhsIdx i q 0).val = (q ⟨0, by decide⟩).val :=
  dot_S5000x320_S320x16_S5000x16_1_0_0_1_n_n.rhsIdx_val_of_single rfl i q
theorem rhs_proj_1 (i : S5000x16.Idx) (q : dot_S5000x320_S320x16_S5000x16_1_0_0_1_n_n.contr.Idx) :
    (dot_S5000x320_S320x16_S5000x16_1_0_0_1_n_n.rhsIdx i q 1).val = (i 1).val := by
  unfold DotDims.rhsIdx
  rw [dif_neg (show ¬(1 : Fin S320x16.rank) ∈ dot_S5000x320_S320x16_S5000x16_1_0_0_1_n_n.rhsBatch by decide),
    dif_pos (show (1 : Fin S320x16.rank) ∈ dot_S5000x320_S320x16_S5000x16_1_0_0_1_n_n.rhsNonContracting by decide)]
  rfl

theorem proj_apply (l : FVec Ideal S5000x320 .bf16) (w : FVec Ideal S320x16 .bf16) (r : Fin 5000) (j : Fin 16) :
    matmul dot_S5000x320_S320x16_S5000x16_1_0_0_1_n_n none l w (constant S5000x16 .f32 0x00000000#32) (ix2 r j)
      = ∑ k : Fin 320, l (ix2 r k) * w (ix2 k j) := by
  simp only [matmul]
  rw [Ideal.matmul_constant_zero_apply, ← Equiv.sum_comp (contrEquiv1 dot_S5000x320_S320x16_S5000x16_1_0_0_1_n_n 320 rfl rfl).symm]
  refine Finset.sum_congr rfl fun k _ => ?_
  have hk := contrEquiv1_symm_val dot_S5000x320_S320x16_S5000x16_1_0_0_1_n_n 320 rfl rfl k
  have el : dot_S5000x320_S320x16_S5000x16_1_0_0_1_n_n.lhsIdx (ix2 r j) ((contrEquiv1 dot_S5000x320_S320x16_S5000x16_1_0_0_1_n_n 320 rfl rfl).symm k) = ix2 r k :=
    funext fun a => Fin.ext (by
      match a with
      | ⟨0, _⟩ => exact lhs_proj_0 _ _
      | ⟨1, _⟩ => exact (lhs_proj_1 _ _).trans hk)
  have er : dot_S5000x320_S320x16_S5000x16_1_0_0_1_n_n.rhsIdx (ix2 r j) ((contrEquiv1 dot_S5000x320_S320x16_S5000x16_1_0_0_1_n_n 320 rfl rfl).symm k) = ix2 k j :=
    funext fun a => Fin.ext (by
      match a with
      | ⟨0, _⟩ => exact (rhs_proj_0 _ _).trans hk
      | ⟨1, _⟩ => exact rhs_proj_1 _ _)
  rw [el, er]

theorem join_lo {α : Type} (a : S5000x256.Idx → α) (b : S5000x64.Idx → α) (r : Fin 5000) (k : Fin 320) (h : k.val < 256) :
    concatenate S5000x320 1 [⟨S5000x256, a⟩, ⟨S5000x64, b⟩] concatenates_S5000x256_S5000x64_S5000x320_d1 (ix2 r k)
      = a (ix2 r ⟨k.val, h⟩) := by
  refine concatenate_apply_piece (1 : Fin S5000x320.rank) _ _ (ix2 r k) 0 (by show 0 < 2; omega) S5000x256 a rfl rfl 0 rfl (ix2 r ⟨k.val, h⟩) ?_ ?_
  · intro b
    match b with
    | ⟨0, _⟩ => intro _; rfl
    | ⟨1, _⟩ => intro hb; exact absurd rfl hb
  · show 0 + k.val = k.val
    omega

theorem join_hi {α : Type} (a : S5000x256.Idx → α) (b : S5000x64.Idx → α) (r : Fin 5000) (k : Fin 320) (h : ¬ k.val < 256) :
    concatenate S5000x320 1 [⟨S5000x256, a⟩, ⟨S5000x64, b⟩] concatenates_S5000x256_S5000x64_S5000x320_d1 (ix2 r k)
      = b (ix2 r ⟨k.val - 256, by have := k.isLt; omega⟩) := by
  refine concatenate_apply_piece (1 : Fin S5000x320.rank) _ _ (ix2 r k) 1 (by show 1 < 2; omega) S5000x64 b rfl rfl 256 rfl
    (ix2 r ⟨k.val - 256, by have := k.isLt; omega⟩) ?_ ?_
  · intro b
    match b with
    | ⟨0, _⟩ => intro _; rfl
    | ⟨1, _⟩ => intro hb; exact absurd rfl hb
  · show 256 + (k.val - 256) = k.val
    omega

theorem col_log_apply {n : Nat} (v : FVec Ideal S5000 .f32) (h1 : S5000.ShapeCasts S5000x1) (h2 : S5000x1.Broadcasts ⟨2, ![5000, n]⟩)
    (r : Fin 5000) (j : Fin n) :
    broadcastTo ⟨2, ![5000, n]⟩ (log (shapeCast S5000x1 v h1)) h2 (ix2 r j) = Ideal.log (v (ix1 r)) :=
  col_apply (log v) h1 h2 r j

def lsmBlk (L : FVec Ideal S5000x16 .f32) : FVec Ideal S5000x16 .f32 :=
  subf
    (subf L (broadcastTo S5000x16 (shapeCast S5000x1
      (maximumf (broadcast S5000 (Scalar.ofBits .f32 0xFF800000#32))
        (multiReduction .maximumf [1] S5000 L 0xFF800000#32 reduces_S5000x16_S5000 (.inl rfl) rfl))
      shapeCasts_S5000_S5000x1) broadcasts_S5000x1_S5000x16))
    (broadcastTo S5000x16 (log (shapeCast S5000x1
      (multiReduction .add [1] S5000
        (exp (subf L (broadcastTo S5000x16 (shapeCast S5000x1
          (maximumf (broadcast S5000 (Scalar.ofBits .f32 0xFF800000#32))
            (multiReduction .maximumf [1] S5000 L 0xFF800000#32 reduces_S5000x16_S5000 (.inl rfl) rfl))
          shapeCasts_S5000_S5000x1) broadcasts_S5000x1_S5000x16)))
        0x00000000#32 reduces_S5000x16_S5000 (.inl rfl) rfl)
      shapeCasts_S5000_S5000x1)) broadcasts_S5000x1_S5000x16)

theorem lsmBlk_apply (L : FVec Ideal S5000x16 .f32) (r : Fin 5000) (j : Fin 16) :
    lsmBlk L (ix2 r j) = Cert.Spec.lsmax (fun k => L (ix2 r k)) j := by
  unfold lsmBlk
  simp only [subf_apply, col_log_apply, col_apply, maximumf_apply, broadcast_apply]
  rw [rowmax_apply (n := 16) L reduces_S5000x16_S5000 _ _ r]
  rw [rowsum_apply (n := 16) _ reduces_S5000x16_S5000 _ _ r]
  simp only [vexp_apply, subf_apply, col_apply, maximumf_apply, broadcast_apply]
  rw [rowmax_apply (n := 16) L reduces_S5000x16_S5000 _ _ r]
  rfl

def logitsBlk (x0 : FVec Ideal S5000x64 .f32) (x1 : FVec Ideal S5000x256 .bf16) (x2 : FVec Ideal S320x16 .f32) (x3 : FVec Ideal S1x16 .f32) :
    FVec Ideal S5000x16 .f32 :=
  addf
    (matmul dot_S5000x320_S320x16_S5000x16_1_0_0_1_n_n none
      (concatenate S5000x320 1 [⟨S5000x256, shapeCast S5000x256 x1 shapeCasts_S5000x256_S5000x256⟩, ⟨S5000x64, truncf .bf16 (k1_pay1 x0) bitsLt_bf16_f32⟩]
        concatenates_S5000x256_S5000x64_S5000x320_d1)
      (truncf .bf16 x2 bitsLt_bf16_f32) (constant S5000x16 .f32 0x00000000#32))
    (broadcastTo S5000x16 x3 broadcasts_S1x16_S5000x16)

def joinedRow (x0 : FVec Ideal S5000x64 .f32) (x1 : FVec Ideal S5000x256 .bf16) (r : Fin 5000) (k : Fin 320) : EReal :=
  if h : k.val < 256 then x1 (ix2 r ⟨k.val, h⟩)
  else Cert.Spec.smax (fun k' => x0 (ix2 r k')) ⟨k.val - 256, by have := k.isLt; omega⟩

theorem logitsBlk_apply (x0 : FVec Ideal S5000x64 .f32) (x1 : FVec Ideal S5000x256 .bf16) (x2 : FVec Ideal S320x16 .f32) (x3 : FVec Ideal S1x16 .f32)
    (r : Fin 5000) (j : Fin 16) :
    logitsBlk x0 x1 x2 x3 (ix2 r j) = (∑ k : Fin 320, joinedRow x0 x1 r k * x2 (ix2 k j)) + x3 (ix2 (0 : Fin 1) j) := by
  unfold logitsBlk
  rw [addf_apply, proj_apply, broadcastTo_1b_ab_apply]
  refine congrArg (· + x3 (ix2 (0 : Fin 1) j)) (Finset.sum_congr rfl fun k _ => ?_)
  rw [truncf_apply]
  refine congrArg (· * x2 (ix2 k j)) ?_
  unfold joinedRow
  by_cases h : k.val < 256
  · rw [dif_pos h]
    refine (join_lo _ _ r k h).trans ?_
    rw [shapeCast_self]
  · rw [dif_neg h]
    refine (join_hi _ _ r k h).trans ?_
    rw [truncf_apply]
    exact pay1_apply x0 r _

theorem pay2_eq (x0 : Vec Ideal S5000x64 .f32) (x1 : Vec Ideal S5000x256 .bf16) (x2 : Vec Ideal S320x16 .f32) (x3 : Vec Ideal S1x16 .f32) :
    k1_pay2 x0 x1 x2 x3 = lsmBlk (logitsBlk x0 x1 x2 x3) := by
  unfold k1_pay2 lsmBlk logitsBlk
  simp only [shapeCast_self]
  try rfl

theorem pay2_apply (x0 : Vec Ideal S5000x64 .f32) (x1 : Vec Ideal S5000x256 .bf16) (x2 : Vec Ideal S320x16 .f32) (x3 : Vec Ideal S1x16 .f32)
    (r : Fin 5000) (j : Fin 16) :
    k1_pay2 x0 x1 x2 x3 (ix2 r j)
      = Cert.Spec.lsmax (fun j' => (∑ k : Fin 320, joinedRow x0 x1 r k * x2 (ix2 k j')) + x3 (ix2 (0 : Fin 1) j')) j := by
  rw [pay2_eq, lsmBlk_apply]
  exact congrArg (fun f => Cert.Spec.lsmax f j) (funext fun j' => logitsBlk_apply x0 x1 x2 x3 r j')

end Cert.KernelIdeal.Val

end
-- ==== Proof.KI.Val1.lean ====
import proofs.«138361_j81398220194162_1_alg».proof.Proof.KI.R1
import proofs.«138361_j81398220194162_1_alg».proof.Proof.KI.Pay1
import Idealize.ShloMosaic.Lib.Pipeline.Value
import Idealize.ShloMosaic.Lib.ValueIdx
import Idealize.ShloMosaic.Lib.ValueLayout
import Idealize.ShloMosaic.PureOps.Ideal.Laws
import proofs.«138361_j81398220194162_1_alg».proof.Proof.Spec

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

theorem soft_blk (XA : Cert.Spec.Mat 100000 64) (x0 : Vec Ideal S5000x64 .f32) (p : Fin 5000) (q : Fin 64) (R : Fin 100000)
    (i3 : S100000x64.Idx) (h3 : i3 = ix2 R q)
    (h0 : ∀ k, x0 (ix2 p k) = XA (ix2 R k)) : k1_pay1 x0 (ix2 p q) = Cert.Spec.soft XA (i3 0) (i3 1) := by
  subst h3
  show _ = Cert.Spec.soft XA R q
  rw [pay1_apply]
  unfold Cert.Spec.soft
  exact congrArg (fun f => Cert.Spec.smax f q) (funext h0)

theorem zout_blk (XX : Cert.Spec.Mat 100000 256) (XA : Cert.Spec.Mat 100000 64) (Wt : Cert.Spec.Mat 320 16) (B : Cert.Spec.Mat 1 16)
    (x0 : Vec Ideal S5000x64 .f32) (x1 : Vec Ideal S5000x256 .bf16) (x2 : Vec Ideal S320x16 .f32) (x3 : Vec Ideal S1x16 .f32)
    (p : Fin 5000) (q : Fin 16) (R : Fin 100000) (i3 : S100000x16.Idx) (hi : i3 = ix2 R q)
    (h0 : ∀ k, x0 (ix2 p k) = XA (ix2 R k)) (h1 : ∀ k, x1 (ix2 p k) = XX (ix2 R k)) (h2 : x2 = Wt) (h3 : x3 = B) :
    k1_pay2 x0 x1 x2 x3 (ix2 p q) = Cert.Spec.zout XX XA Wt B (i3 0) (i3 1) := by
  subst h2 h3 hi
  show _ = Cert.Spec.zout XX XA x2 x3 R q
  rw [pay2_apply]
  unfold Cert.Spec.zout Cert.Spec.logits
  refine congrArg (fun f => Cert.Spec.lsmax f q) (funext fun j' => ?_)
  refine congrArg (· + x3 (ix2 (0 : Fin 1) j')) (Finset.sum_congr rfl fun k _ => ?_)
  refine congrArg (· * x2 (ix2 k j')) ?_
  unfold joinedRow Cert.Spec.joined Cert.Spec.soft
  by_cases h : k.val < 256
  · rw [dif_pos h, dif_pos h]; exact h1 _
  · rw [dif_neg h, dif_neg h]
    exact congrArg (fun f => Cert.Spec.smax f _) (funext h0)

section Arrays
variable (V : (c : Dev nD) → (b : Ref sig .tc) → Buf (Elt Ideal) ((c : Thread nD τ).loc b))

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := by
  have h := t.isLt
  have hN : cfg1.N = 20 := N_1
  omega

theorem iblk0_apply (c : Dev nD) (t : Fin cfg1.N) (p : Fin 5000) (k : Fin 64) :
    (Hand.iblk1 V c 0 t : Vec Ideal S5000x64 .f32) (ix2 p k)
      = V c main_v17 (ix2 (⟨t.val * 5000 + p.val, by have := t_lt t; have := p.isLt; omega⟩ : Fin 100000) k) := by
  obtain ⟨e0, e1, -⟩ := idx1 t
  unfold Hand.iblk1
  rw [View.read_apply]
  show V c main_v17 _ = V c main_v17 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem iblk1_apply (c : Dev nD) (t : Fin cfg1.N) (p : Fin 5000) (k : Fin 256) :
    (Hand.iblk1 V c 1 t : Vec Ideal S5000x256 .bf16) (ix2 p k)
      = V c main_v20 (ix2 (⟨t.val * 5000 + p.val, by have := t_lt t; have := p.isLt; omega⟩ : Fin 100000) k) := by
  obtain ⟨-, -, e0, e1, -⟩ := idx1 t
  unfold Hand.iblk1
  rw [View.read_apply]
  show V c main_v20 _ = V c main_v20 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 256 + 1 * k.val = k.val; rw [e1]; omega

theorem iblk2_eq (c : Dev nD) (t : Fin cfg1.N) : (Hand.iblk1 V c 2 t : Vec Ideal S320x16 .f32) = V c main_v21 := by
  obtain ⟨-, -, -, -, e0, e1, -⟩ := idx1 t
  funext j
  unfold Hand.iblk1
  rw [View.read_apply]
  show V c main_v21 _ = V c main_v21 _
  congr 1
  funext a
  apply Fin.ext
  match a with
  | ⟨0, _⟩ => show win1_2.index t (0 : Fin 2) * 320 + 1 * (j 0).val = (j 0).val; rw [e0]; omega
  | ⟨1, _⟩ => show win1_2.index t (1 : Fin 2) * 16 + 1 * (j 1).val = (j 1).val; rw [e1]; omega

theorem iblk3_eq (c : Dev nD) (t : Fin cfg1.N) : (Hand.iblk1 V c 3 t : Vec Ideal S1x16 .f32) = V c main_v22 := by
  obtain ⟨-, -, -, -, -, -, e0, e1, -⟩ := idx1 t
  funext j
  unfold Hand.iblk1
  rw [View.read_apply]
  show V c main_v22 _ = V c main_v22 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 16 + 1 * (j 1).val = (j 1).val; rw [e1]; omega

theorem hz : (![0, 0] : Fin 2 → Nat) = fun _ => 0 := funext fun a => by fin_cases a <;> rfl

def G4 (c : Dev nD) : Cert.Spec.Mat 100000 64 := fun i => Cert.Spec.soft (V c main_v17) (i 0) (i 1)

def G5 (c : Dev nD) : Cert.Spec.Mat 100000 16 := fun i =>
  Cert.Spec.zout (V c main_v20) (V c main_v17) (V c main_v21) (V c main_v22) (i 0) (i 1)

theorem flushed4_eq (c : Dev nD) (t : Fin cfg1.N) (hf : (cfg1.win 4).flush t = true) :
    (Hand.dat1 V c).flushed 4 t = ((cfg1.win 4).blk t).view.read (Elt Ideal) (G4 V c) := by
  obtain ⟨-, -, -, -, -, -, -, -, e0, e1, -⟩ := idx1 t
  show (cfg1.win 4).cut (grid1.coords t) ((Hand.dat1 V c).after 4 t) = _
  rw [Hand.after1_4]
  unfold Hand.out1_4
  rw [View.canon_unit_zero hz]
  simp only [View.ld_unit_zero (S := S5000x64) hz]
  funext y
  show k1_pay1 (Hand.iblk1 V c 0 t) y = G4 V c (((cfg1.win 4).blk t).view.emb y)
  obtain ⟨p, q, rfl⟩ : ∃ (p : Fin 5000) (q : Fin 64), y = ix2 p q := ⟨y 0, y 1, eq_ix2 y⟩
  have hp : p.val < 5000 := p.isLt
  have ht : t.val < 20 := t_lt t
  have h3 : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  unfold G4
  exact soft_blk (V c main_v17) _ p q _ _ h3 (fun k => iblk0_apply V c t p k)

theorem flushed5_eq (c : Dev nD) (t : Fin cfg1.N) (hf : (cfg1.win 5).flush t = true) :
    (Hand.dat1 V c).flushed 5 t = ((cfg1.win 5).blk t).view.read (Elt Ideal) (G5 V c) := by
  obtain ⟨-, -, -, -, -, -, -, -, -, -, e0, e1⟩ := idx1 t
  show (cfg1.win 5).cut (grid1.coords t) ((Hand.dat1 V c).after 5 t) = _
  rw [Hand.after1_5]
  unfold Hand.out1_5
  rw [View.canon_unit_zero hz]
  simp only [View.ld_unit_zero (S := S5000x64) hz, View.ld_unit_zero (S := S5000x256) hz, View.ld_unit_zero (S := S320x16) hz,
    View.ld_unit_zero (S := S1x16) hz]
  funext y
  show k1_pay2 (Hand.iblk1 V c 0 t) (Hand.iblk1 V c 1 t) (Hand.iblk1 V c 2 t) (Hand.iblk1 V c 3 t) y
    = G5 V c (((cfg1.win 5).blk t).view.emb y)
  obtain ⟨p, q, rfl⟩ : ∃ (p : Fin 5000) (q : Fin 16), y = ix2 p q := ⟨y 0, y 1, eq_ix2 y⟩
  have hp : p.val < 5000 := p.isLt
  have ht : t.val < 20 := t_lt t
  have h3 : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 16 + 1 * q.val = q.val; omega
  unfold G5
  exact zout_blk (V c main_v20) (V c main_v17) (V c main_v21) (V c main_v22) _ _ _ _ p q _ _ h3
    (fun k => iblk0_apply V c t p k) (fun k => iblk1_apply V c t p k) (iblk2_eq V c t) (iblk3_eq V c t)

theorem mem_blk4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v23_0).slice (win1_4.rect t)).set ↔ _
  rw [View.set_slice_whole, Rect.mem_set_unit]
  exact Iff.rfl

theorem mem_blk5 (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v23_1).slice (win1_5.rect t)).set ↔ _
  rw [View.set_slice_whole, Rect.mem_set_unit]
  exact Iff.rfl

theorem cover4 (i : S100000x64.Idx) : ∃ t : Fin cfg1.N, (cfg1.win 4).flush t = true ∧ i ∈ ((cfg1.win 4).blk t).view.set := by
  have h0 : (i 0).val < 100000 := (i 0).isLt
  have h1 : (i 1).val < 64 := (i 1).isLt
  have hN : cfg1.N = 20 := N_1
  refine ⟨⟨(i 0).val / 5000, by rw [hN]; omega⟩, flush1_4 _, ?_⟩
  obtain ⟨-, -, -, -, -, -, -, -, e0, e1, -⟩ := idx1 ⟨(i 0).val / 5000, by rw [hN]; omega⟩
  rw [mem_blk4]
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e1]; omega

theorem cover5 (i : S100000x16.Idx) : ∃ t : Fin cfg1.N, (cfg1.win 5).flush t = true ∧ i ∈ ((cfg1.win 5).blk t).view.set := by
  have h0 : (i 0).val < 100000 := (i 0).isLt
  have h1 : (i 1).val < 16 := (i 1).isLt
  have hN : cfg1.N = 20 := N_1
  refine ⟨⟨(i 0).val / 5000, by rw [hN]; omega⟩, flush1_5 _, ?_⟩
  obtain ⟨-, -, -, -, -, -, -, -, -, -, e0, e1⟩ := idx1 ⟨(i 0).val / 5000, by rw [hN]; omega⟩
  rw [mem_blk5]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 16 ≤ (i 1).val ∧ (i 1).val < win1_5.index _ (1 : Fin 2) * 16 + 16
    rw [e1]; omega

theorem final4 (c : Dev nD) : (Hand.dat1 V c).arrAt 4 cfg1.N = G4 V c :=
  (Hand.dat1 V c).arrAt_eq_of_cover 4 (G4 V c) (flushed4_eq V c) cover4

theorem final5 (c : Dev nD) : (Hand.dat1 V c).arrAt 5 cfg1.N = G5 V c :=
  (Hand.dat1 V c).arrAt_eq_of_cover 5 (G5 V c) (flushed5_eq V c) cover5

theorem final1_4 (c : Dev nD) (r : Fin 100000) (j : Fin 64) :
    (Hand.dat1 V c).arrAt 4 cfg1.N (ix2 r j) = Cert.Spec.soft (V c main_v17) r j :=
  congrFun (final4 V c) (ix2 r j)

theorem final1_5 (c : Dev nD) (r : Fin 100000) (j : Fin 16) :
    (Hand.dat1 V c).arrAt 5 cfg1.N (ix2 r j)
      = Cert.Spec.zout (V c main_v20) (V c main_v17) (V c main_v21) (V c main_v22) r j :=
  congrFun (final5 V c) (ix2 r j)

end Arrays

end Cert.KernelIdeal.Val

end
-- ==== Proof.KI.R2Pieces.lean ====
import proofs.«138361_j81398220194162_1_alg».proof.Proof.KI.R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

variable (c : Dev nD) (i : grid2.Coords)
  (arg1 : Memref sig .tc .vmem S5000x64 .f32) (harg1 : arg1.IsWhole) (arg2 : Memref sig .tc .vmem S5000x64 .f32) (harg2 : arg2.IsWhole)
  (arg3 : Memref sig .tc .vmem S5000x1 .f32) (harg3 : arg3.IsWhole) (arg4 : Memref sig .tc .vmem S1x1 .f32) (harg4 : arg4.IsWhole)
  (arg5 : Memref sig .tc .vmem S1x1 .f32) (harg5 : arg5.IsWhole) (arg6 : Memref sig .tc .vmem S64x64 .f32) (harg6 : arg6.IsWhole)
  (arg7 : Memref sig .tc .vmem S1x1 .f32) (harg7 : arg7.IsWhole) (arg8 : Memref sig .tc .vmem S1x1 .f32) (harg8 : arg8.IsWhole)
  (arg9 : Memref sig .tc .vmem S64x64 .f32) (harg9 : arg9.IsWhole)
  (x0 : Vec F S5000x64 .f32) (x1 : Vec F S5000x64 .f32) (x2 : Vec F S5000x1 .f32)

/-- The first point leaves in each accumulator its block's share over the zero it has just stored. -/
theorem accs_A (hc0 : cond2_0 i) (hc1 : ¬cond2_1 i) :
    (outs6 (kernelRun2_A c i arg1 harg1 arg2 harg2 arg3 harg3 arg4 harg4 arg5 harg5 arg6 harg6 arg7 harg7 arg8 harg8 arg9 harg9 hc0 hc1 x0 x1 x2)).2
      = (k2_pay6 x0 x1 (k2_pay2 (F := F)), k2_pay7 x0 x2 (k2_pay3 (F := F)), k2_pay1 (k2_pay8 x0) (k2_pay4 (F := F)) (constant S64x64 .f32 0x00000000#32)) := by
  unfold outs6; dsimp only
  refine Prod.ext ?_ (Prod.ext ?_ ?_)
  all_goals
    dsimp only
    rw [View.read_writes_junk_eq_canon]
    unfold kernelRun2_A
    dsimp only
    sl_unfold_words
    first
      | rw [View.canon_cons_unit_zero (S := S1x1) hz2, View.readCov_unit_zero (S := S1x1) _ hz2]
      | rw [View.canon_cons_unit_zero (S := S64x64) hz2, View.readCov_unit_zero (S := S64x64) _ hz2]
    simp only [View.readAt_eq_ld, harg1.read_unread, harg2.read_unread, harg3.read_unread, harg7.read_unread, harg8.read_unread, harg9.read_unread,
      View.ld_unit_zero (S := S5000x64) hz2, View.ld_unit_zero (S := S5000x1) hz2, View.ld_unit_zero (S := S1x1) hz2, View.ld_unit_zero (S := S64x64) hz2]

variable (xs0 : Vec F S1x1 .f32) (xs1 : Vec F S1x1 .f32) (xs2 : Vec F S64x64 .f32)

/-- A later point leaves in each accumulator its block's share over what the point before left. -/
theorem accs_B (hc0 : ¬cond2_0 i) (hc1 : ¬cond2_1 i) :
    (outs6 (kernelRun2_B c i arg1 harg1 arg2 harg2 arg3 harg3 arg4 harg4 arg5 harg5 arg6 harg6 arg7 harg7 arg8 harg8 arg9 harg9 hc0 hc1 x0 x1 x2 xs0 xs1 xs2)).2
      = (k2_pay6 x0 x1 xs0, k2_pay7 x0 x2 xs1, k2_pay1 (k2_pay8 x0) xs2 (constant S64x64 .f32 0x00000000#32)) := by
  unfold outs6; dsimp only
  refine Prod.ext ?_ (Prod.ext ?_ ?_)
  all_goals
    dsimp only
    rw [View.read_writes_junk_eq_canon]
    unfold kernelRun2_B
    dsimp only
    sl_unfold_words
    rw [View.canon_unit_zero hz2]
    simp only [View.readAt_eq_ld, harg1.read_unread, harg2.read_unread, harg3.read_unread, harg7.read_unread, harg8.read_unread, harg9.read_unread,
      View.ld_unit_zero (S := S5000x64) hz2, View.ld_unit_zero (S := S5000x1) hz2, View.ld_unit_zero (S := S1x1) hz2, View.ld_unit_zero (S := S64x64) hz2]

/-- So does the last point, and it copies each accumulator's new value to its output. -/
theorem outs_C (hc0 : ¬cond2_0 i) (hc1 : cond2_1 i) :
    outs6 (kernelRun2_C c i arg1 harg1 arg2 harg2 arg3 harg3 arg4 harg4 arg5 harg5 arg6 harg6 arg7 harg7 arg8 harg8 arg9 harg9 hc0 hc1 x0 x1 x2 xs0 xs1 xs2)
      = ((k2_pay6 x0 x1 xs0, k2_pay7 x0 x2 xs1, k2_pay1 (k2_pay8 x0) xs2 (constant S64x64 .f32 0x00000000#32)),
         (k2_pay6 x0 x1 xs0, k2_pay7 x0 x2 xs1, k2_pay1 (k2_pay8 x0) xs2 (constant S64x64 .f32 0x00000000#32))) := by
  unfold outs6
  refine Prod.ext (Prod.ext ?_ (Prod.ext ?_ ?_)) (Prod.ext ?_ (Prod.ext ?_ ?_))
  all_goals
    dsimp only
    rw [View.read_writes_junk_eq_canon]
    unfold kernelRun2_C
    dsimp only
    sl_unfold_words
    first
      | rw [View.canon_unit_zero hz2, View.readCov_unit_zero (S := S1x1) _ hz2]
      | rw [View.canon_unit_zero hz2, View.readCov_unit_zero (S := S64x64) _ hz2]
      | rw [View.canon_unit_zero hz2]
    simp only [View.readAt_eq_ld, harg1.read_unread, harg2.read_unread, harg3.read_unread, harg7.read_unread, harg8.read_unread, harg9.read_unread,
      View.ld_unit_zero (S := S5000x64) hz2, View.ld_unit_zero (S := S5000x1) hz2, View.ld_unit_zero (S := S1x1) hz2, View.ld_unit_zero (S := S64x64) hz2]

end Cert.KernelIdeal.Hand

end
-- ==== Proof.KI.Val2Pay.lean ====
import proofs.«138361_j81398220194162_1_alg».proof.Proof.Gen.KernelIdeal.Skeleton
import proofs.«138361_j81398220194162_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx

theorem pay2_reset_s : k2_pay2 (F := Ideal) (ix2 (0 : Fin 1) (0 : Fin 1)) = 0 := by
  unfold k2_pay2
  simp only [shapeCast_self, broadcast_apply]
  exact Ideal.ofBits_zero_f32

theorem pay2_reset_d : k2_pay3 (F := Ideal) (ix2 (0 : Fin 1) (0 : Fin 1)) = 0 := by
  unfold k2_pay3
  simp only [shapeCast_self, broadcast_apply]
  exact Ideal.ofBits_zero_f32

theorem pay2_reset_g (i j : Fin 64) : k2_pay4 (F := Ideal) (ix2 i j) = 0 := by
  unfold k2_pay4
  simp only [shapeCast_self, broadcast_apply]
  exact Ideal.ofBits_zero_f32

def idxEquiv1ab {a b : Nat} : (⟨3, ![1, a, b]⟩ : Shape).Idx ≃ Fin a × Fin b where
  toFun i := (i 1, i 2)
  invFun p := ix3 (0 : Fin 1) p.1 p.2
  left_inv i := by
    funext d
    match d with
    | ⟨0, _⟩ => exact Fin.ext (by have h0 : (i 0).val < 1 := (i 0).isLt; show 0 = (i 0).val; omega)
    | ⟨1, _⟩ => rfl
    | ⟨2, _⟩ => rfl
  right_inv _ := rfl

theorem sum_idx1ab {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

theorem blockTotal (v : FVec Ideal S5000x64 .f32) :
    extractAt ![0, 0, 0] (shapeCast S1x1x1 (multiReduction .add [1, 2] S1 (shapeCast S1x5000x64 v shapeCasts_S5000x64_S1x5000x64)
        0x00000000#32 reduces_S1x5000x64_S1 (.inl rfl) rfl) shapeCasts_S1_S1x1x1) inpos_S1x1x1_p0_0_0
      = ∑ p : Fin 5000, ∑ q : Fin 64, v (ix2 p q) := by
  unfold extractAt
  rw [shapeCast_apply _ shapeCasts_S1_S1x1x1 _ (ix1 (0 : Fin 1)) (by
    rw [Shape.rowMajor_val_three, Shape.rowMajor_val_one]; rfl)]
  refine (Ideal.multiReduction_add_total (shapeCast S1x5000x64 v shapeCasts_S5000x64_S1x5000x64) 0x00000000#32 reduces_S1x5000x64_S1
    (by intro b; fin_cases b; rfl) (.inl rfl) rfl (ix1 (0 : Fin 1))).trans ?_
  rw [sum_idx1ab]
  refine Finset.sum_congr rfl fun p _ => Finset.sum_congr rfl fun q _ => ?_
  exact shapeCast_ab_1ab_apply v shapeCasts_S5000x64_S1x5000x64 0 p q

theorem pay2_cut (x0 x1 : Vec Ideal S5000x64 .f32) (acc : Vec Ideal S1x1 .f32) :
    k2_pay6 x0 x1 acc (ix2 (0 : Fin 1) (0 : Fin 1)) = acc (ix2 (0 : Fin 1) (0 : Fin 1)) + ∑ p : Fin 5000, ∑ q : Fin 64, x0 (ix2 p q) * x1 (ix2 p q) := by
  unfold k2_pay6 k2_pay5
  simp only [shapeCast_self, addf_apply, broadcast_apply]
  rw [blockTotal]
  rfl

theorem pay2_deg (x0 : Vec Ideal S5000x64 .f32) (x2 : Vec Ideal S5000x1 .f32) (acc : Vec Ideal S1x1 .f32) :
    k2_pay7 x0 x2 acc (ix2 (0 : Fin 1) (0 : Fin 1)) = acc (ix2 (0 : Fin 1) (0 : Fin 1)) + ∑ p : Fin 5000, ∑ q : Fin 64, x2 (ix2 p (0 : Fin 1)) * x0 (ix2 p q) * x0 (ix2 p q) := by
  unfold k2_pay7 k2_pay5
  simp only [shapeCast_self, addf_apply, broadcast_apply]
  rw [blockTotal]
  refine congrArg (acc (ix2 (0 : Fin 1) (0 : Fin 1)) + ·) (Finset.sum_congr rfl fun p _ => Finset.sum_congr rfl fun q _ => ?_)
  simp only [mulf_apply]
  rw [broadcastTo_apply x2 broadcasts_S5000x1_S5000x64 (ix2 p q) (ix2 p (0 : Fin 1)) (by
    intro a
    match a with
    | ⟨0, _⟩ => rfl
    | ⟨1, _⟩ => rfl)]

theorem lhs_gram_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_gram_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_gram_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_gram_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

theorem pay2_gram (x0 : Vec Ideal S5000x64 .f32) (acc : Vec Ideal S64x64 .f32) (i j : Fin 64) :
    k2_pay1 (k2_pay8 x0) acc (constant (F := Ideal) S64x64 .f32 0x00000000#32) (ix2 i j)
      = acc (ix2 i j) + ∑ p : Fin 5000, x0 (ix2 p i) * x0 (ix2 p j) := by
  unfold k2_pay1 k2_pay8 k2_pay5
  simp only [shapeCast_self, addf_apply]
  simp only [matmul]
  rw [Ideal.matmul_constant_zero_apply, ← Equiv.sum_comp (contrEquiv1 dot_S5000x64_S5000x64_S64x64_0_0_1_1_n_n 5000 rfl rfl).symm]
  refine congrArg (acc (ix2 i j) + ·) (Finset.sum_congr rfl fun k _ => ?_)
  have hk := contrEquiv1_symm_val dot_S5000x64_S5000x64_S64x64_0_0_1_1_n_n 5000 rfl rfl k
  have el : dot_S5000x64_S5000x64_S64x64_0_0_1_1_n_n.lhsIdx (ix2 i j) ((contrEquiv1 dot_S5000x64_S5000x64_S64x64_0_0_1_1_n_n 5000 rfl rfl).symm k) = ix2 k i := funext fun a => Fin.ext (by
    match a with
    | ⟨0, _⟩ => exact (lhs_gram_0 _ _).trans hk
    | ⟨1, _⟩ => exact lhs_gram_1 _ _)
  have er : dot_S5000x64_S5000x64_S64x64_0_0_1_1_n_n.rhsIdx (ix2 i j) ((contrEquiv1 dot_S5000x64_S5000x64_S64x64_0_0_1_1_n_n 5000 rfl rfl).symm k) = ix2 k j := funext fun a => Fin.ext (by
    match a with
    | ⟨0, _⟩ => exact (rhs_gram_0 _ _).trans hk
    | ⟨1, _⟩ => exact rhs_gram_1 _ _)
  rw [el, er]
  rfl

end Cert.KernelIdeal.Val

end
-- ==== Proof.KI.Val2Alg.lean ====
import proofs.«138361_j81398220194162_1_alg».proof.Proof.Spec
import Mathlib.Algebra.BigOperators.Fin

noncomputable section

open scoped BigOperators

namespace Cert.KernelIdeal.Val

open Idealize.ShloMosaic Idealize.ShloMosaic.ValueIdx

def rowOf (t : Fin 20) (p : Fin 5000) : Fin 100000 :=
  ⟨5000 * t.val + p.val, by have := t.isLt; have := p.isLt; omega⟩

def rowEquiv : Fin 20 × Fin 5000 ≃ Fin 100000 where
  toFun x := rowOf x.1 x.2
  invFun r := (⟨r.val / 5000, by have := r.isLt; omega⟩, ⟨r.val % 5000, Nat.mod_lt _ (by decide)⟩)
  left_inv x := Prod.ext
    (Fin.ext (by show (5000 * x.1.val + x.2.val) / 5000 = x.1.val; have := x.2.isLt; omega))
    (Fin.ext (by show (5000 * x.1.val + x.2.val) % 5000 = x.2.val; have := x.2.isLt; omega))
  right_inv r := Fin.ext (by show 5000 * (r.val / 5000) + r.val % 5000 = r.val; omega)

def blockTot (f : Fin 100000 → EReal) (t : Fin 20) : EReal := ∑ p : Fin 5000, f (rowOf t p)

theorem sum_blockTot (f : Fin 100000 → EReal) : ∑ t : Fin 20, blockTot f t = ∑ r : Fin 100000, f r := by
  unfold blockTot
  refine (Fintype.sum_prod_type' (fun (t : Fin 20) (p : Fin 5000) => f (rowOf t p))).symm.trans ?_
  exact Fintype.sum_equiv rowEquiv _ _ (fun _ => rfl)

def blockAt (n : ℕ) : Fin 20 := ⟨min n 19, by omega⟩

theorem blockAt_of_lt (n : ℕ) (h : n < 20) : blockAt n = ⟨n, h⟩ := Fin.ext (by show min n 19 = n; omega)

theorem blockAt_val (t : Fin 20) : blockAt t.val = t := Fin.ext (by show min t.val 19 = t.val; have := t.isLt; omega)

def accTot (f : Fin 100000 → EReal) : ℕ → EReal
  | 0 => 0 + blockTot f (blockAt 0)
  | n + 1 => accTot f n + blockTot f (blockAt (n + 1))

theorem accTot_zero (f : Fin 100000 → EReal) : accTot f 0 = 0 + blockTot f 0 := rfl

theorem accTot_succ (f : Fin 100000 → EReal) (n : ℕ) (h : n + 1 < 20) :
    accTot f (n + 1) = accTot f n + blockTot f ⟨n + 1, h⟩ := by
  rw [← blockAt_of_lt (n + 1) h]; rfl

theorem accTot_eq_range (f : Fin 100000 → EReal) (n : ℕ) :
    accTot f n = ∑ t ∈ Finset.range (n + 1), blockTot f (blockAt t) := by
  induction n with
  | zero => rw [Finset.sum_range_one]; exact zero_add _
  | succ n ih => rw [Finset.sum_range_succ _ (n + 1), ← ih]; rfl

theorem accTot_last (f : Fin 100000 → EReal) : accTot f 19 = ∑ r : Fin 100000, f r := by
  rw [accTot_eq_range, ← sum_blockTot f, ← Fin.sum_univ_eq_sum_range (fun t => blockTot f (blockAt t)) 20]
  exact Finset.sum_congr rfl fun t _ => by rw [blockAt_val]

theorem cut_rows (S AS : Cert.Spec.Mat 100000 64) :
    Cert.Spec.cut S AS = ∑ r : Fin 100000, ∑ q : Fin 64, S (ix2 r q) * AS (ix2 r q) := by
  unfold Cert.Spec.cut
  exact sum_idx2 _

theorem dterm_rows (S : Cert.Spec.Mat 100000 64) (D : Cert.Spec.Mat 100000 1) :
    Cert.Spec.dterm S D = ∑ r : Fin 100000, ∑ q : Fin 64, D (ix2 r (0 : Fin 1)) * S (ix2 r q) * S (ix2 r q) := by
  unfold Cert.Spec.dterm
  exact sum_idx2 _

theorem gram_rows (S : Cert.Spec.Mat 100000 64) (i j : Fin 64) :
    Cert.Spec.gram S i j = ∑ r : Fin 100000, S (ix2 r i) * S (ix2 r j) := rfl

theorem cut_eq_acc (S AS : Cert.Spec.Mat 100000 64) :
    accTot (fun r => ∑ q : Fin 64, S (ix2 r q) * AS (ix2 r q)) 19 = Cert.Spec.cut S AS := by
  rw [accTot_last, cut_rows]

theorem dterm_eq_acc (S : Cert.Spec.Mat 100000 64) (D : Cert.Spec.Mat 100000 1) :
    accTot (fun r => ∑ q : Fin 64, D (ix2 r (0 : Fin 1)) * S (ix2 r q) * S (ix2 r q)) 19 = Cert.Spec.dterm S D := by
  rw [accTot_last, dterm_rows]

theorem gram_eq_acc (S : Cert.Spec.Mat 100000 64) (i j : Fin 64) :
    accTot (fun r => S (ix2 r i) * S (ix2 r j)) 19 = Cert.Spec.gram S i j := by
  rw [accTot_last, gram_rows]

end Cert.KernelIdeal.Val

end
-- ==== Proof.KI.Val2.lean ====
import proofs.«138361_j81398220194162_1_alg».proof.Proof.KI.R2Pieces
import proofs.«138361_j81398220194162_1_alg».proof.Proof.KI.Val2Pay
import proofs.«138361_j81398220194162_1_alg».proof.Proof.KI.Val2Alg
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

abbrev cutRow (S AS : Cert.Spec.Mat 100000 64) (r : Fin 100000) : EReal := ∑ q : Fin 64, S (ix2 r q) * AS (ix2 r q)

abbrev degRow (S : Cert.Spec.Mat 100000 64) (D : Cert.Spec.Mat 100000 1) (r : Fin 100000) : EReal :=
  ∑ q : Fin 64, D (ix2 r (0 : Fin 1)) * S (ix2 r q) * S (ix2 r q)

abbrev gramRow (S : Cert.Spec.Mat 100000 64) (i j : Fin 64) (r : Fin 100000) : EReal := S (ix2 r i) * S (ix2 r j)

theorem accTot_pos (f : Fin 100000 → EReal) (n : ℕ) (h0 : n ≠ 0) (h : n < 20) :
    accTot f n = accTot f (n - 1) + blockTot f ⟨n, h⟩ := by
  cases n with
  | zero => exact absurd rfl h0
  | succ n => exact accTot_succ f n h

theorem cut_acc_last (S AS : Cert.Spec.Mat 100000 64) : accTot (cutRow S AS) 19 = Cert.Spec.cut S AS := cut_eq_acc S AS
theorem deg_acc_last (S : Cert.Spec.Mat 100000 64) (D : Cert.Spec.Mat 100000 1) : accTot (degRow S D) 19 = Cert.Spec.dterm S D := dterm_eq_acc S D
theorem gram_acc_last (S : Cert.Spec.Mat 100000 64) (i j : Fin 64) : accTot (gramRow S i j) 19 = Cert.Spec.gram S i j := gram_eq_acc S i j

theorem cut_first (S AS : Cert.Spec.Mat 100000 64) (x0 x1 : Vec Ideal S5000x64 .f32)
    (hx0 : ∀ (p : Fin 5000) (q : Fin 64), x0 (ix2 p q) = S (ix2 (rowOf 0 p) q))
    (hx1 : ∀ (p : Fin 5000) (q : Fin 64), x1 (ix2 p q) = AS (ix2 (rowOf 0 p) q)) :
    k2_pay6 x0 x1 (k2_pay2 (F := Ideal)) (ix2 (0 : Fin 1) (0 : Fin 1)) = accTot (cutRow S AS) 0 := by
  rw [pay2_cut, pay2_reset_s, accTot_zero]
  unfold blockTot
  refine congrArg (0 + ·) (Finset.sum_congr rfl fun p _ => Finset.sum_congr rfl fun q _ => ?_)
  rw [hx0, hx1]

theorem cut_next (S AS : Cert.Spec.Mat 100000 64) (x0 x1 : Vec Ideal S5000x64 .f32) (acc : Vec Ideal S1x1 .f32)
    (n : ℕ) (h0 : n ≠ 0) (h : n < 20)
    (hx0 : ∀ (p : Fin 5000) (q : Fin 64), x0 (ix2 p q) = S (ix2 (rowOf ⟨n, h⟩ p) q))
    (hx1 : ∀ (p : Fin 5000) (q : Fin 64), x1 (ix2 p q) = AS (ix2 (rowOf ⟨n, h⟩ p) q))
    (hacc : acc (ix2 (0 : Fin 1) (0 : Fin 1)) = accTot (cutRow S AS) (n - 1)) :
    k2_pay6 x0 x1 acc (ix2 (0 : Fin 1) (0 : Fin 1)) = accTot (cutRow S AS) n := by
  rw [pay2_cut, hacc, accTot_pos _ n h0 h]
  unfold blockTot
  refine congrArg (accTot (cutRow S AS) (n - 1) + ·) (Finset.sum_congr rfl fun p _ => Finset.sum_congr rfl fun q _ => ?_)
  rw [hx0, hx1]

theorem deg_first (S : Cert.Spec.Mat 100000 64) (D : Cert.Spec.Mat 100000 1) (x0 : Vec Ideal S5000x64 .f32) (x2 : Vec Ideal S5000x1 .f32)
    (hx0 : ∀ (p : Fin 5000) (q : Fin 64), x0 (ix2 p q) = S (ix2 (rowOf 0 p) q))
    (hx2 : ∀ p : Fin 5000, x2 (ix2 p (0 : Fin 1)) = D (ix2 (rowOf 0 p) (0 : Fin 1))) :
    k2_pay7 x0 x2 (k2_pay3 (F := Ideal)) (ix2 (0 : Fin 1) (0 : Fin 1)) = accTot (degRow S D) 0 := by
  rw [pay2_deg, pay2_reset_d, accTot_zero]
  unfold blockTot
  refine congrArg (0 + ·) (Finset.sum_congr rfl fun p _ => Finset.sum_congr rfl fun q _ => ?_)
  rw [hx0, hx2]

theorem deg_next (S : Cert.Spec.Mat 100000 64) (D : Cert.Spec.Mat 100000 1) (x0 : Vec Ideal S5000x64 .f32) (x2 : Vec Ideal S5000x1 .f32)
    (acc : Vec Ideal S1x1 .f32) (n : ℕ) (h0 : n ≠ 0) (h : n < 20)
    (hx0 : ∀ (p : Fin 5000) (q : Fin 64), x0 (ix2 p q) = S (ix2 (rowOf ⟨n, h⟩ p) q))
    (hx2 : ∀ p : Fin 5000, x2 (ix2 p (0 : Fin 1)) = D (ix2 (rowOf ⟨n, h⟩ p) (0 : Fin 1)))
    (hacc : acc (ix2 (0 : Fin 1) (0 : Fin 1)) = accTot (degRow S D) (n - 1)) :
    k2_pay7 x0 x2 acc (ix2 (0 : Fin 1) (0 : Fin 1)) = accTot (degRow S D) n := by
  rw [pay2_deg, hacc, accTot_pos _ n h0 h]
  unfold blockTot
  refine congrArg (accTot (degRow S D) (n - 1) + ·) (Finset.sum_congr rfl fun p _ => Finset.sum_congr rfl fun q _ => ?_)
  rw [hx0, hx2]

theorem gram_first (S : Cert.Spec.Mat 100000 64) (x0 : Vec Ideal S5000x64 .f32) (i j : Fin 64)
    (hx0 : ∀ (p : Fin 5000) (q : Fin 64), x0 (ix2 p q) = S (ix2 (rowOf 0 p) q)) :
    k2_pay1 (k2_pay8 x0) (k2_pay4 (F := Ideal)) (constant (F := Ideal) S64x64 .f32 0x00000000#32) (ix2 i j) = accTot (gramRow S i j) 0 := by
  rw [pay2_gram, pay2_reset_g, accTot_zero]
  unfold blockTot
  refine congrArg (0 + ·) (Finset.sum_congr rfl fun p _ => ?_)
  rw [hx0, hx0]

theorem gram_next (S : Cert.Spec.Mat 100000 64) (x0 : Vec Ideal S5000x64 .f32) (acc : Vec Ideal S64x64 .f32) (i j : Fin 64)
    (n : ℕ) (h0 : n ≠ 0) (h : n < 20)
    (hx0 : ∀ (p : Fin 5000) (q : Fin 64), x0 (ix2 p q) = S (ix2 (rowOf ⟨n, h⟩ p) q))
    (hacc : acc (ix2 i j) = accTot (gramRow S i j) (n - 1)) :
    k2_pay1 (k2_pay8 x0) acc (constant (F := Ideal) S64x64 .f32 0x00000000#32) (ix2 i j) = accTot (gramRow S i j) n := by
  rw [pay2_gram, hacc, accTot_pos _ n h0 h]
  unfold blockTot
  refine congrArg (accTot (gramRow S i j) (n - 1) + ·) (Finset.sum_congr rfl fun p _ => ?_)
  rw [hx0, hx0]

variable (V : (c : Dev nD) → (b : Ref sig .tc) → Buf (Elt Ideal) ((c : Thread nD τ).loc b))

abbrev Sarr (c : Dev nD) : Cert.Spec.Mat 100000 64 := V c main_v23_0
abbrev ASarr (c : Dev nD) : Cert.Spec.Mat 100000 64 := V c main_v33
abbrev Darr (c : Dev nD) : Cert.Spec.Mat 100000 1 := V c main_v38

abbrev sblk (c : Dev nD) (t : Fin cfg2.N) : Vec Ideal S5000x64 .f32 := iblk2 V c 0 t
abbrev asblk (c : Dev nD) (t : Fin cfg2.N) : Vec Ideal S5000x64 .f32 := iblk2 V c 1 t
abbrev dblk (c : Dev nD) (t : Fin cfg2.N) : Vec Ideal S5000x1 .f32 := iblk2 V c 2 t

abbrev prev (c : Dev nD) (t : Fin cfg2.N) : Acc2 Ideal :=
  (outsAt2 V c (t.val - 1) (Nat.lt_of_le_of_lt (Nat.sub_le _ _) t.isLt)).2

theorem lt20 (t : Fin cfg2.N) : t.val < 20 := lt_of_lt_of_eq t.isLt (show cfg2.N = 20 from N_2)

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem sblk_apply (c : Dev nD) (t : Fin cfg2.N) (p : Fin 5000) (q : Fin 64) :
    sblk V c t (ix2 p q) = Sarr V c (ix2 (rowOf ⟨t.val, lt20 t⟩ p) q) := by
  obtain ⟨e00, e01, -⟩ := idx_facts2 t
  show Sarr V c (((cfg2.win 0).blk t).view.emb (ix2 p q)) = _
  refine congrArg (Sarr V c) (funext fun a => Fin.ext ?_)
  match a with
  | ⟨0, _⟩ => show win2_0.index t (0 : Fin 2) * 5000 + 1 * p.val = 5000 * t.val + p.val; omega
  | ⟨1, _⟩ => show win2_0.index t (1 : Fin 2) * 64 + 1 * q.val = q.val; omega

theorem asblk_apply (c : Dev nD) (t : Fin cfg2.N) (p : Fin 5000) (q : Fin 64) :
    asblk V c t (ix2 p q) = ASarr V c (ix2 (rowOf ⟨t.val, lt20 t⟩ p) q) := by
  obtain ⟨-, -, e10, e11, -⟩ := idx_facts2 t
  show ASarr V c (((cfg2.win 1).blk t).view.emb (ix2 p q)) = _
  refine congrArg (ASarr V c) (funext fun a => Fin.ext ?_)
  match a with
  | ⟨0, _⟩ => show win2_1.index t (0 : Fin 2) * 5000 + 1 * p.val = 5000 * t.val + p.val; omega
  | ⟨1, _⟩ => show win2_1.index t (1 : Fin 2) * 64 + 1 * q.val = q.val; omega

theorem dblk_apply (c : Dev nD) (t : Fin cfg2.N) (p : Fin 5000) :
    dblk V c t (ix2 p (0 : Fin 1)) = Darr V c (ix2 (rowOf ⟨t.val, lt20 t⟩ p) (0 : Fin 1)) := by
  obtain ⟨-, -, -, -, e20, e21, -⟩ := idx_facts2 t
  show Darr V c (((cfg2.win 2).blk t).view.emb (ix2 p (0 : Fin 1))) = _
  refine congrArg (Darr V c) (funext fun a => Fin.ext ?_)
  match a with
  | ⟨0, _⟩ => show win2_2.index t (0 : Fin 2) * 5000 + 1 * p.val = 5000 * t.val + p.val; omega
  | ⟨1, _⟩ => show win2_2.index t (1 : Fin 2) * 1 + 1 * 0 = 0; omega

theorem acc_first (c : Dev nD) (t : Fin cfg2.N) (h0 : t.val % 20 = 0) (h1 : ¬t.val % 20 = 19) :
    (outsAt2 V c t.val t.isLt).2 = (k2_pay6 (sblk V c t) (asblk V c t) (k2_pay2 (F := Ideal)), k2_pay7 (sblk V c t) (dblk V c t) (k2_pay3 (F := Ideal)),
      k2_pay1 (k2_pay8 (sblk V c t)) (k2_pay4 (F := Ideal)) (constant (F := Ideal) S64x64 .f32 0x00000000#32)) := by
  rw [outsAt2_A V c t h0 h1]
  exact accs_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (iblk2 V c 0 t) (iblk2 V c 1 t) (iblk2 V c 2 t) ((hcond2_0 t).mpr h0) (fun h => h1 ((hcond2_1 t).mp h))

theorem outs_last (c : Dev nD) (t : Fin cfg2.N) (h0 : ¬t.val % 20 = 0) (h1 : t.val % 20 = 19) :
    outs6 (runC V c t h0 h1 (prev V c t)) = ((k2_pay6 (sblk V c t) (asblk V c t) (prev V c t).1, k2_pay7 (sblk V c t) (dblk V c t) (prev V c t).2.1, k2_pay1 (k2_pay8 (sblk V c t)) (prev V c t).2.2 (constant (F := Ideal) S64x64 .f32 0x00000000#32)), (k2_pay6 (sblk V c t) (asblk V c t) (prev V c t).1, k2_pay7 (sblk V c t) (dblk V c t) (prev V c t).2.1, k2_pay1 (k2_pay8 (sblk V c t)) (prev V c t).2.2 (constant (F := Ideal) S64x64 .f32 0x00000000#32))) :=
  outs_C (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (iblk2 V c 0 t) (iblk2 V c 1 t) (iblk2 V c 2 t) (prev V c t).1 (prev V c t).2.1 (prev V c t).2.2 (fun h => h0 ((hcond2_0 t).mp h)) ((hcond2_1 t).mpr h1)

theorem acc_next (c : Dev nD) (t : Fin cfg2.N) (h0 : ¬t.val % 20 = 0) : (outsAt2 V c t.val t.isLt).2 = (k2_pay6 (sblk V c t) (asblk V c t) (prev V c t).1, k2_pay7 (sblk V c t) (dblk V c t) (prev V c t).2.1, k2_pay1 (k2_pay8 (sblk V c t)) (prev V c t).2.2 (constant (F := Ideal) S64x64 .f32 0x00000000#32)) := by
  by_cases h1 : t.val % 20 = 19
  · rw [outsAt2_C V c t h0 h1]; exact congrArg Prod.snd (outs_last V c t h0 h1)
  · rw [outsAt2_B V c t h0 h1]
    exact accs_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (iblk2 V c 0 t) (iblk2 V c 1 t) (iblk2 V c 2 t) (prev V c t).1 (prev V c t).2.1 (prev V c t).2.2 (fun h => h0 ((hcond2_0 t).mp h)) (fun h => h1 ((hcond2_1 t).mp h))

theorem out_last (c : Dev nD) (t : Fin cfg2.N) (h0 : ¬t.val % 20 = 0) (h1 : t.val % 20 = 19) : (outsAt2 V c t.val t.isLt).1 = (k2_pay6 (sblk V c t) (asblk V c t) (prev V c t).1, k2_pay7 (sblk V c t) (dblk V c t) (prev V c t).2.1, k2_pay1 (k2_pay8 (sblk V c t)) (prev V c t).2.2 (constant (F := Ideal) S64x64 .f32 0x00000000#32)) := by
  rw [outsAt2_C V c t h0 h1]; exact congrArg Prod.fst (outs_last V c t h0 h1)

theorem acc_inv (c : Dev nD) : ∀ (n : ℕ) (hn : n < cfg2.N),
    (outsAt2 V c n hn).2.1 (ix2 (0 : Fin 1) (0 : Fin 1)) = accTot (cutRow (Sarr V c) (ASarr V c)) n
    ∧ (outsAt2 V c n hn).2.2.1 (ix2 (0 : Fin 1) (0 : Fin 1)) = accTot (degRow (Sarr V c) (Darr V c)) n
    ∧ ∀ i j : Fin 64, (outsAt2 V c n hn).2.2.2 (ix2 i j) = accTot (gramRow (Sarr V c) i j) n := by
  intro n
  induction n with
  | zero =>
    intro hn
    have h0 : (⟨0, hn⟩ : Fin cfg2.N).val % 20 = 0 := rfl
    have h1 : ¬(⟨0, hn⟩ : Fin cfg2.N).val % 20 = 19 := (by decide : ¬(0 : ℕ) % 20 = 19)
    refine ⟨?_, ?_, fun i j => ?_⟩
    · exact (congrFun (congrArg Prod.fst (acc_first V c ⟨0, hn⟩ h0 h1)) (ix2 (0 : Fin 1) (0 : Fin 1))).trans
        (cut_first (Sarr V c) (ASarr V c) (sblk V c ⟨0, hn⟩) (asblk V c ⟨0, hn⟩) (sblk_apply V c ⟨0, hn⟩) (asblk_apply V c ⟨0, hn⟩))
    · exact (congrFun (congrArg (fun s : Acc2 Ideal => s.2.1) (acc_first V c ⟨0, hn⟩ h0 h1)) (ix2 (0 : Fin 1) (0 : Fin 1))).trans
        (deg_first (Sarr V c) (Darr V c) (sblk V c ⟨0, hn⟩) (dblk V c ⟨0, hn⟩) (sblk_apply V c ⟨0, hn⟩) (dblk_apply V c ⟨0, hn⟩))
    · exact (congrFun (congrArg (fun s : Acc2 Ideal => s.2.2) (acc_first V c ⟨0, hn⟩ h0 h1)) (ix2 i j)).trans
        (gram_first (Sarr V c) (sblk V c ⟨0, hn⟩) i j (sblk_apply V c ⟨0, hn⟩))
  | succ n ih =>
    intro hn
    have hN : n + 1 < 20 := lt20 ⟨n + 1, hn⟩
    have h0 : ¬(⟨n + 1, hn⟩ : Fin cfg2.N).val % 20 = 0 := by show ¬(n + 1) % 20 = 0; omega
    obtain ⟨ih0, ih1, ih2⟩ := ih (Nat.lt_of_succ_lt hn)
    refine ⟨?_, ?_, fun i j => ?_⟩
    · exact (congrFun (congrArg Prod.fst (acc_next V c ⟨n + 1, hn⟩ h0)) (ix2 (0 : Fin 1) (0 : Fin 1))).trans
        (cut_next (Sarr V c) (ASarr V c) (sblk V c ⟨n + 1, hn⟩) (asblk V c ⟨n + 1, hn⟩) (prev V c ⟨n + 1, hn⟩).1 (n + 1) (Nat.succ_ne_zero n) hN
          (sblk_apply V c ⟨n + 1, hn⟩) (asblk_apply V c ⟨n + 1, hn⟩) ih0)
    · exact (congrFun (congrArg (fun s : Acc2 Ideal => s.2.1) (acc_next V c ⟨n + 1, hn⟩ h0)) (ix2 (0 : Fin 1) (0 : Fin 1))).trans
        (deg_next (Sarr V c) (Darr V c) (sblk V c ⟨n + 1, hn⟩) (dblk V c ⟨n + 1, hn⟩) (prev V c ⟨n + 1, hn⟩).2.1 (n + 1) (Nat.succ_ne_zero n) hN
          (sblk_apply V c ⟨n + 1, hn⟩) (dblk_apply V c ⟨n + 1, hn⟩) ih1)
    · exact (congrFun (congrArg (fun s : Acc2 Ideal => s.2.2) (acc_next V c ⟨n + 1, hn⟩ h0)) (ix2 i j)).trans
        (gram_next (Sarr V c) (sblk V c ⟨n + 1, hn⟩) (prev V c ⟨n + 1, hn⟩).2.2 i j (n + 1) (Nat.succ_ne_zero n) hN
          (sblk_apply V c ⟨n + 1, hn⟩) (ih2 i j))

theorem one_idx (j : S1x1.Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

theorem last_facts (t : Fin cfg2.N) (h1 : t.val % 20 = 19) : ¬t.val % 20 = 0 ∧ t.val ≠ 0 ∧ t.val = 19 := by
  have := lt20 t; omega

theorem read_const2_3 (t : Fin cfg2.N) (x : EReal) (j : S1x1.Idx) :
    ((cfg2.win 3).blk t).view.read (Elt Ideal) (fun _ : S1x1.Idx => x) j = x := rfl
theorem read_const2_4 (t : Fin cfg2.N) (x : EReal) (j : S1x1.Idx) :
    ((cfg2.win 4).blk t).view.read (Elt Ideal) (fun _ : S1x1.Idx => x) j = x := rfl
theorem read_fun2_5 (t : Fin cfg2.N) (g : S64x64.Idx → EReal) (j : S64x64.Idx) :
    ((cfg2.win 5).blk t).view.read (Elt Ideal) g j = g (((cfg2.win 5).blk t).view.emb j) := rfl

theorem flushed2_3_eq (c : Dev nD) (t : Fin cfg2.N) (hf : (cfg2.win 3).flush t = true) :
    (dat2 V c).flushed 3 t = ((cfg2.win 3).blk t).view.read (Elt Ideal) (fun _ : S1x1.Idx => Cert.Spec.cut (Sarr V c) (ASarr V c)) := by
  have h1 : t.val % 20 = 19 := (flush2_3 t).mp hf
  obtain ⟨h0, hne, h19⟩ := last_facts t h1
  show (cfg2.win 3).cut (grid2.coords t) ((dat2 V c).after 3 t) = _
  rw [after2_3]
  funext j
  obtain rfl := one_idx j
  refine Eq.trans ?_ (read_const2_3 t (Cert.Spec.cut (Sarr V c) (ASarr V c)) (ix2 (0 : Fin 1) (0 : Fin 1))).symm
  refine (congrFun (congrArg Prod.fst (out_last V c t h0 h1)) (ix2 (0 : Fin 1) (0 : Fin 1))).trans ?_
  refine (cut_next (Sarr V c) (ASarr V c) (sblk V c t) (asblk V c t) (prev V c t).1 t.val hne (lt20 t)
    (sblk_apply V c t) (asblk_apply V c t) (acc_inv V c (t.val - 1) _).1).trans ?_
  exact (congrArg (accTot (cutRow (Sarr V c) (ASarr V c))) h19).trans (cut_acc_last (Sarr V c) (ASarr V c))

theorem flushed2_4_eq (c : Dev nD) (t : Fin cfg2.N) (hf : (cfg2.win 4).flush t = true) :
    (dat2 V c).flushed 4 t = ((cfg2.win 4).blk t).view.read (Elt Ideal) (fun _ : S1x1.Idx => Cert.Spec.dterm (Sarr V c) (Darr V c)) := by
  have h1 : t.val % 20 = 19 := (flush2_4 t).mp hf
  obtain ⟨h0, hne, h19⟩ := last_facts t h1
  show (cfg2.win 4).cut (grid2.coords t) ((dat2 V c).after 4 t) = _
  rw [after2_4]
  funext j
  obtain rfl := one_idx j
  refine Eq.trans ?_ (read_const2_4 t (Cert.Spec.dterm (Sarr V c) (Darr V c)) (ix2 (0 : Fin 1) (0 : Fin 1))).symm
  refine (congrFun (congrArg (fun s : Acc2 Ideal => s.2.1) (out_last V c t h0 h1)) (ix2 (0 : Fin 1) (0 : Fin 1))).trans ?_
  refine (deg_next (Sarr V c) (Darr V c) (sblk V c t) (dblk V c t) (prev V c t).2.1 t.val hne (lt20 t)
    (sblk_apply V c t) (dblk_apply V c t) (acc_inv V c (t.val - 1) _).2.1).trans ?_
  exact (congrArg (accTot (degRow (Sarr V c) (Darr V c))) h19).trans (deg_acc_last (Sarr V c) (Darr V c))

theorem flushed2_5_eq (c : Dev nD) (t : Fin cfg2.N) (hf : (cfg2.win 5).flush t = true) :
    (dat2 V c).flushed 5 t = ((cfg2.win 5).blk t).view.read (Elt Ideal) (fun y : S64x64.Idx => Cert.Spec.gram (Sarr V c) (y 0) (y 1)) := by
  have h1 : t.val % 20 = 19 := (flush2_5 t).mp hf
  obtain ⟨h0, hne, h19⟩ := last_facts t h1
  obtain ⟨-, -, -, -, -, -, -, -, -, -, e50, e51⟩ := idx_facts2 t
  show (cfg2.win 5).cut (grid2.coords t) ((dat2 V c).after 5 t) = _
  rw [after2_5]
  funext y
  obtain ⟨i, j, rfl⟩ : ∃ (i j : Fin 64), y = ix2 i j := ⟨y 0, y 1, eq_ix2 y⟩
  have he : ((cfg2.win 5).blk t).view.emb (ix2 i j) = ix2 i j := by
    funext a; apply Fin.ext
    match a with
    | ⟨0, _⟩ => show win2_5.index t (0 : Fin 2) * 64 + 1 * i.val = i.val; omega
    | ⟨1, _⟩ => show win2_5.index t (1 : Fin 2) * 64 + 1 * j.val = j.val; omega
  refine Eq.trans ?_ (read_fun2_5 t (fun y : S64x64.Idx => Cert.Spec.gram (Sarr V c) (y 0) (y 1)) (ix2 i j)).symm
  rw [he]
  show _ = Cert.Spec.gram (Sarr V c) i j
  refine (congrFun (congrArg (fun s : Acc2 Ideal => s.2.2) (out_last V c t h0 h1)) (ix2 i j)).trans ?_
  refine (gram_next (Sarr V c) (sblk V c t) (prev V c t).2.2 i j t.val hne (lt20 t)
    (sblk_apply V c t) ((acc_inv V c (t.val - 1) _).2.2 i j)).trans ?_
  exact (congrArg (accTot (gramRow (Sarr V c) i j)) h19).trans (gram_acc_last (Sarr V c) i j)

abbrev tLast : Fin cfg2.N := ⟨19, by rw [show cfg2.N = 20 from N_2]; decide⟩

theorem cover2_3 (i : S1x1.Idx) : ∃ t : Fin cfg2.N, (cfg2.win 3).flush t = true ∧ i ∈ ((cfg2.win 3).blk t).view.set := by
  obtain ⟨-, -, -, -, -, -, e30, e31, -⟩ := idx_facts2 tLast
  refine ⟨tLast, (flush2_3 tLast).mpr rfl, ?_⟩
  show i ∈ ((View.whole main_v39_0).slice (win2_3.rect tLast)).set
  rw [View.set_slice_whole, Rect.mem_set_unit]
  intro a
  match a with
  | ⟨0, _⟩ => show win2_3.index tLast (0 : Fin 2) * 1 ≤ (i 0).val ∧ (i 0).val < win2_3.index tLast (0 : Fin 2) * 1 + 1; have h : (i 0).val < 1 := (i 0).isLt; omega
  | ⟨1, _⟩ => show win2_3.index tLast (1 : Fin 2) * 1 ≤ (i 1).val ∧ (i 1).val < win2_3.index tLast (1 : Fin 2) * 1 + 1; have h : (i 1).val < 1 := (i 1).isLt; omega

theorem cover2_4 (i : S1x1.Idx) : ∃ t : Fin cfg2.N, (cfg2.win 4).flush t = true ∧ i ∈ ((cfg2.win 4).blk t).view.set := by
  obtain ⟨-, -, -, -, -, -, -, -, e40, e41, -⟩ := idx_facts2 tLast
  refine ⟨tLast, (flush2_4 tLast).mpr rfl, ?_⟩
  show i ∈ ((View.whole main_v39_1).slice (win2_4.rect tLast)).set
  rw [View.set_slice_whole, Rect.mem_set_unit]
  intro a
  match a with
  | ⟨0, _⟩ => show win2_4.index tLast (0 : Fin 2) * 1 ≤ (i 0).val ∧ (i 0).val < win2_4.index tLast (0 : Fin 2) * 1 + 1; have h : (i 0).val < 1 := (i 0).isLt; omega
  | ⟨1, _⟩ => show win2_4.index tLast (1 : Fin 2) * 1 ≤ (i 1).val ∧ (i 1).val < win2_4.index tLast (1 : Fin 2) * 1 + 1; have h : (i 1).val < 1 := (i 1).isLt; omega

theorem cover2_5 (i : S64x64.Idx) : ∃ t : Fin cfg2.N, (cfg2.win 5).flush t = true ∧ i ∈ ((cfg2.win 5).blk t).view.set := by
  obtain ⟨-, -, -, -, -, -, -, -, -, -, e50, e51⟩ := idx_facts2 tLast
  refine ⟨tLast, (flush2_5 tLast).mpr rfl, ?_⟩
  show i ∈ ((View.whole main_v39_2).slice (win2_5.rect tLast)).set
  rw [View.set_slice_whole, Rect.mem_set_unit]
  intro a
  match a with
  | ⟨0, _⟩ => show win2_5.index tLast (0 : Fin 2) * 64 ≤ (i 0).val ∧ (i 0).val < win2_5.index tLast (0 : Fin 2) * 64 + 64; have h : (i 0).val < 64 := (i 0).isLt; omega
  | ⟨1, _⟩ => show win2_5.index tLast (1 : Fin 2) * 64 ≤ (i 1).val ∧ (i 1).val < win2_5.index tLast (1 : Fin 2) * 64 + 64; have h : (i 1).val < 64 := (i 1).isLt; omega

theorem final2_3 (c : Dev nD) :
    (dat2 V c).arrAt 3 cfg2.N (ix2 (0 : Fin 1) (0 : Fin 1)) = Cert.Spec.cut (V c main_v23_0) (V c main_v33) :=
  congrFun ((dat2 V c).arrAt_eq_of_cover 3 _ (fun t hf => flushed2_3_eq V c t hf) cover2_3) (ix2 (0 : Fin 1) (0 : Fin 1))

theorem final2_4 (c : Dev nD) :
    (dat2 V c).arrAt 4 cfg2.N (ix2 (0 : Fin 1) (0 : Fin 1)) = Cert.Spec.dterm (V c main_v23_0) (V c main_v38) :=
  congrFun ((dat2 V c).arrAt_eq_of_cover 4 _ (fun t hf => flushed2_4_eq V c t hf) cover2_4) (ix2 (0 : Fin 1) (0 : Fin 1))

theorem final2_5 (c : Dev nD) (i j : Fin 64) :
    (dat2 V c).arrAt 5 cfg2.N (ix2 i j) = Cert.Spec.gram (V c main_v23_0) i j :=
  congrFun ((dat2 V c).arrAt_eq_of_cover 5 _ (fun t hf => flushed2_5_eq V c t hf) cover2_5) (ix2 i j)

end Cert.KernelIdeal.Val

end
-- ==== Proof.RefSpec.lean ====
import proofs.«138361_j81398220194162_1_alg».proof.Proof.RefReadP
import proofs.«138361_j81398220194162_1_alg».proof.Proof.Spec
import Idealize.ShloMosaic.Lib.ValueIdx
import Idealize.ShloMosaic.Lib.Pipeline.Value
import Idealize.ShloMosaic.PureOps.Reduce
import Idealize.ShloMosaic.PureOps.Ideal.Laws

noncomputable section

open scoped BigOperators

namespace Cert.ReferenceIdeal.RefSpec

open Cert.ReferenceIdeal Cert.ReferenceIdeal.Gen Idealize.ShloMosaic Idealize.ShloMosaic.ValueIdx Idealize.ShloMosaic.StableHlo

theorem ref_dense (x0 : (⟨S100000x128, .f32⟩ : BufTy).Contents (Elt Ideal)) (x4 : (⟨S256x128, .f32⟩ : BufTy).Contents (Elt Ideal))
    (x5 : (⟨S256, .f32⟩ : BufTy).Contents (Elt Ideal)) (r : Fin 100000) (j : Fin 256) :
    ReadP.val_main_v22 (F := Ideal) x0 x4 x5 (ix2 r j)
      = Cert.Spec.dense x0 (ReadP.val_main_v18 (F := Ideal) x4) (ReadP.val_main_v20 (F := Ideal) x5) r j := by
  rw [ReadP.val_main_v22_apply, ReadP.val_main_v19_apply, ReadP.val_main_v21_apply]
  have el : ∀ k : Fin 128, ReadP.lidx_main_v19 (ix2 r j) k = ix2 r k := fun k =>
    funext fun a => Fin.ext (by match a with | ⟨0, _⟩ => rfl | ⟨1, _⟩ => rfl)
  have er : ∀ k : Fin 128, ReadP.ridx_main_v19 (ix2 r j) k = ix2 k j := fun k =>
    funext fun a => Fin.ext (by match a with | ⟨0, _⟩ => rfl | ⟨1, _⟩ => rfl)
  have eb : ReadP.idx_main_v21 (ix2 r j) = ix2 (0 : Fin 1) j :=
    funext fun a => Fin.ext (by match a with | ⟨0, _⟩ => rfl | ⟨1, _⟩ => rfl)
  simp only [el, er, eb]
  rfl

theorem lift_row {n : Nat} (h : (⟨2, ![100000, n]⟩ : Shape).Reduces [1] (⟨1, ![100000]⟩ : Shape)) (r : Fin 100000) (c : Fin n) :
    h.lift (ix1 r) c = ix2 r c :=
  funext fun a => Fin.ext (by match a with | ⟨0, _⟩ => rfl | ⟨1, _⟩ => rfl)

theorem hostRowMax {n : Nat} (x : (⟨2, ![100000, n]⟩ : Shape).Idx → EReal) (init : S_.Idx → EReal)
    (h' : (⟨2, ![100000, n]⟩ : Shape).ReducesTo [1] (⟨1, ![100000]⟩ : Shape))
    (h : (⟨2, ![100000, n]⟩ : Shape).Reduces [1] (⟨1, ![100000]⟩ : Shape)) (r : Fin 100000) :
    Host.reduce (FloatOps.maximumf (F := Ideal) (φ := .f32)) x init h' h_S_ (ix1 r)
      = (Finset.univ : Finset (Fin n)).fold max (init (Shape.Idx.first h_S_)) (fun c => x (ix2 r c)) := by
  refine (Host.reduce_eq_fold_single (FloatOps.maximumf (F := Ideal) (φ := .f32)) x init h' h h_S_ (ix1 r)).trans ?_
  have hf : (x ∘ h.lift (ix1 r)) = fun c : Fin n => x (ix2 r c) := funext fun c => congrArg x (lift_row h r c)
  exact congrArg (fun f => Finset.fold max (init (Shape.Idx.first h_S_)) f (Finset.univ : Finset (Fin n))) hf

theorem ref_rowmax (x1 : (⟨S2x1600000, .i32⟩ : BufTy).Contents (Elt Ideal)) (x2 : (⟨S64x100000, .f32⟩ : BufTy).Contents (Elt Ideal))
    (x3 : (⟨S64, .f32⟩ : BufTy).Contents (Elt Ideal)) (r : Fin 100000) (k : Fin 64) :
    ReadP.val_main_v27 (F := Ideal) x1 x2 x3 (ix2 r k)
      = Cert.Spec.rowMax (fun c : Fin 64 => ReadP.val_main_v17 (F := Ideal) x1 x2 x3 (ix2 r c)) := by
  rw [ReadP.val_main_v27_apply, ReadP.val_main_v26_apply, ReadP.val_main_v25_apply, ReadP.val_main_v24_apply]
  have e : ReadP.idx_main_v26 (ReadP.idx_main_v27 (ix2 r k)) = ix1 r :=
    funext fun a => Fin.ext (by match a with | ⟨0, _⟩ => rfl)
  rw [e]
  show max (Ideal.ofBits .f32 0xFF800000#32) (ReadP.val_main_v23 (F := Ideal) x1 x2 x3 (ix1 r)) = _
  have h : S100000x64.Reduces [1] S100000 := by decide
  exact congrArg (max (Ideal.ofBits .f32 0xFF800000#32))
    (hostRowMax (n := 64) (ReadP.val_main_v17 (F := Ideal) x1 x2 x3) (ReadP.val_main_cst_1 (F := Ideal))
      reducesTo_S100000x64_S100000_d1 h r)

theorem ref_soft (x1 : (⟨S2x1600000, .i32⟩ : BufTy).Contents (Elt Ideal)) (x2 : (⟨S64x100000, .f32⟩ : BufTy).Contents (Elt Ideal))
    (x3 : (⟨S64, .f32⟩ : BufTy).Contents (Elt Ideal)) (r : Fin 100000) (j : Fin 64) :
    ReadP.val_main_v33 (F := Ideal) x1 x2 x3 (ix2 r j)
      = Cert.Spec.soft (ReadP.val_main_v17 (F := Ideal) x1 x2 x3) r j := by
  have hexp : ∀ c : Fin 64, ReadP.val_main_v29 (F := Ideal) x1 x2 x3 (ix2 r c)
      = Ideal.exp (ReadP.val_main_v17 (F := Ideal) x1 x2 x3 (ix2 r c)
          - Cert.Spec.rowMax (fun c : Fin 64 => ReadP.val_main_v17 (F := Ideal) x1 x2 x3 (ix2 r c))) := fun c => by
    rw [ReadP.val_main_v29_apply, ReadP.val_main_v28_apply, ref_rowmax, Ideal.hostUnary_exp_def, Ideal.subf_def]
  rw [ReadP.val_main_v33_apply, ReadP.val_main_v32_apply, ReadP.val_main_v31_apply, ReadP.val_main_v30_apply]
  have e : ∀ k : Fin 64, ReadP.idx_main_v30 (ReadP.idx_main_v31 (ReadP.idx_main_v32 (ix2 r j))) k = ix2 r k := fun k =>
    funext fun a => Fin.ext (by match a with | ⟨0, _⟩ => rfl | ⟨1, _⟩ => rfl)
  simp only [e, hexp]
  show Ideal.div _ (Ideal.ofBits .f32 0x00000000#32 + _) = _
  rw [Ideal.ofBits_zero_f32, zero_add]
  rfl

theorem ref_joined (x0 : (⟨S100000x128, .f32⟩ : BufTy).Contents (Elt Ideal)) (x1 : (⟨S2x1600000, .i32⟩ : BufTy).Contents (Elt Ideal))
    (x2 : (⟨S64x100000, .f32⟩ : BufTy).Contents (Elt Ideal)) (x3 : (⟨S64, .f32⟩ : BufTy).Contents (Elt Ideal))
    (x4 : (⟨S256x128, .f32⟩ : BufTy).Contents (Elt Ideal)) (x5 : (⟨S256, .f32⟩ : BufTy).Contents (Elt Ideal)) (r : Fin 100000) (k : Fin 320) :
    ReadP.val_main_v73 (F := Ideal) x0 x1 x2 x3 x4 x5 (ix2 r k)
      = Cert.Spec.joined (ReadP.val_main_v22 (F := Ideal) x0 x4 x5) (ReadP.val_main_v17 (F := Ideal) x1 x2 x3) r k := by
  unfold ReadP.val_main_v73 Cert.Spec.joined
  by_cases hk : k.val < 256
  · rw [dif_pos hk]
    exact concatenate_apply_piece (1 : Fin S100000x320.rank) [⟨S100000x256, ReadP.val_main_v22 (F := Ideal) x0 x4 x5⟩, ⟨S100000x64, ReadP.val_main_v33 (F := Ideal) x1 x2 x3⟩]
      concatenates_S100000x256_S100000x64_S100000x320_d1 (ix2 r k) 0 Nat.zero_lt_two S100000x256 _ rfl rfl 0 rfl
      (ix2 r ⟨k.val, hk⟩) (fun b hb => by match b with | ⟨0, _⟩ => rfl | ⟨1, _⟩ => exact absurd rfl hb)
      (by show 0 + k.val = k.val; omega)
  · rw [dif_neg hk, ← ref_soft]
    exact concatenate_apply_piece (1 : Fin S100000x320.rank) [⟨S100000x256, ReadP.val_main_v22 (F := Ideal) x0 x4 x5⟩, ⟨S100000x64, ReadP.val_main_v33 (F := Ideal) x1 x2 x3⟩]
      concatenates_S100000x256_S100000x64_S100000x320_d1 (ix2 r k) 1 Nat.one_lt_two S100000x64 _ rfl rfl 256 rfl
      (ix2 r ⟨k.val - 256, by have := k.isLt; omega⟩) (fun b hb => by match b with | ⟨0, _⟩ => rfl | ⟨1, _⟩ => exact absurd rfl hb)
      (by show 256 + (k.val - 256) = k.val; omega)

theorem ref_logits (x0 : (⟨S100000x128, .f32⟩ : BufTy).Contents (Elt Ideal)) (x1 : (⟨S2x1600000, .i32⟩ : BufTy).Contents (Elt Ideal))
    (x2 : (⟨S64x100000, .f32⟩ : BufTy).Contents (Elt Ideal)) (x3 : (⟨S64, .f32⟩ : BufTy).Contents (Elt Ideal))
    (x4 : (⟨S256x128, .f32⟩ : BufTy).Contents (Elt Ideal)) (x5 : (⟨S256, .f32⟩ : BufTy).Contents (Elt Ideal))
    (x6 : (⟨S16x320, .f32⟩ : BufTy).Contents (Elt Ideal)) (x7 : (⟨S16, .f32⟩ : BufTy).Contents (Elt Ideal)) (r : Fin 100000) (j : Fin 16) :
    ReadP.val_main_v78 (F := Ideal) x0 x1 x2 x3 x4 x5 x6 x7 (ix2 r j)
      = Cert.Spec.logits (ReadP.val_main_v22 (F := Ideal) x0 x4 x5) (ReadP.val_main_v17 (F := Ideal) x1 x2 x3) (ReadP.val_main_v74 (F := Ideal) x6) (ReadP.val_main_v76 (F := Ideal) x7) r j := by
  rw [ReadP.val_main_v78_apply, ReadP.val_main_v75_apply, ReadP.val_main_v77_apply]
  have el : ∀ k : Fin 320, ReadP.lidx_main_v75 (ix2 r j) k = ix2 r k := fun k =>
    funext fun a => Fin.ext (by match a with | ⟨0, _⟩ => rfl | ⟨1, _⟩ => rfl)
  have er : ∀ k : Fin 320, ReadP.ridx_main_v75 (ix2 r j) k = ix2 k j := fun k =>
    funext fun a => Fin.ext (by match a with | ⟨0, _⟩ => rfl | ⟨1, _⟩ => rfl)
  have eb : ReadP.idx_main_v77 (ix2 r j) = ix2 (0 : Fin 1) j :=
    funext fun a => Fin.ext (by match a with | ⟨0, _⟩ => rfl | ⟨1, _⟩ => rfl)
  simp only [el, er, eb, ref_joined, Ideal.addf_def]
  rfl

theorem ref_zrowmax (x0 : (⟨S100000x128, .f32⟩ : BufTy).Contents (Elt Ideal)) (x1 : (⟨S2x1600000, .i32⟩ : BufTy).Contents (Elt Ideal))
    (x2 : (⟨S64x100000, .f32⟩ : BufTy).Contents (Elt Ideal)) (x3 : (⟨S64, .f32⟩ : BufTy).Contents (Elt Ideal))
    (x4 : (⟨S256x128, .f32⟩ : BufTy).Contents (Elt Ideal)) (x5 : (⟨S256, .f32⟩ : BufTy).Contents (Elt Ideal))
    (x6 : (⟨S16x320, .f32⟩ : BufTy).Contents (Elt Ideal)) (x7 : (⟨S16, .f32⟩ : BufTy).Contents (Elt Ideal)) (r : Fin 100000) (k : Fin 16) :
    ReadP.val_main_call2_v4 (F := Ideal) x0 x1 x2 x3 x4 x5 x6 x7 (ix2 r k)
      = Cert.Spec.rowMax (fun c : Fin 16 => ReadP.val_main_v78 (F := Ideal) x0 x1 x2 x3 x4 x5 x6 x7 (ix2 r c)) := by
  rw [ReadP.val_main_call2_v4_apply, ReadP.val_main_call2_v3_apply, ReadP.val_main_call2_v2_apply, ReadP.val_main_call2_v1_apply]
  have e : ReadP.idx_main_call2_v3 (ReadP.idx_main_call2_v4 (ix2 r k)) = ix1 r :=
    funext fun a => Fin.ext (by match a with | ⟨0, _⟩ => rfl)
  rw [e]
  have h : S100000x16.Reduces [1] S100000 := by decide
  exact congrArg (max (Ideal.ofBits .f32 0xFF800000#32))
    (hostRowMax (n := 16) (ReadP.val_main_v78 (F := Ideal) x0 x1 x2 x3 x4 x5 x6 x7) (ReadP.val_main_call2_cst (F := Ideal))
      reducesTo_S100000x16_S100000_d1 h r)

theorem ref_zout (x0 : (⟨S100000x128, .f32⟩ : BufTy).Contents (Elt Ideal)) (x1 : (⟨S2x1600000, .i32⟩ : BufTy).Contents (Elt Ideal))
    (x2 : (⟨S64x100000, .f32⟩ : BufTy).Contents (Elt Ideal)) (x3 : (⟨S64, .f32⟩ : BufTy).Contents (Elt Ideal))
    (x4 : (⟨S256x128, .f32⟩ : BufTy).Contents (Elt Ideal)) (x5 : (⟨S256, .f32⟩ : BufTy).Contents (Elt Ideal))
    (x6 : (⟨S16x320, .f32⟩ : BufTy).Contents (Elt Ideal)) (x7 : (⟨S16, .f32⟩ : BufTy).Contents (Elt Ideal)) (r : Fin 100000) (j : Fin 16) :
    ReadP.val_main_v79 (F := Ideal) x0 x1 x2 x3 x4 x5 x6 x7 (ix2 r j)
      = Cert.Spec.zout (ReadP.val_main_v22 (F := Ideal) x0 x4 x5) (ReadP.val_main_v17 (F := Ideal) x1 x2 x3) (ReadP.val_main_v74 (F := Ideal) x6) (ReadP.val_main_v76 (F := Ideal) x7) r j := by
  have hsh : ∀ c : Fin 16, ReadP.val_main_call2_v5 (F := Ideal) x0 x1 x2 x3 x4 x5 x6 x7 (ix2 r c)
      = Cert.Spec.logits (ReadP.val_main_v22 (F := Ideal) x0 x4 x5) (ReadP.val_main_v17 (F := Ideal) x1 x2 x3) (ReadP.val_main_v74 (F := Ideal) x6) (ReadP.val_main_v76 (F := Ideal) x7) r c
        - Cert.Spec.rowMax (fun c : Fin 16 => Cert.Spec.logits (ReadP.val_main_v22 (F := Ideal) x0 x4 x5) (ReadP.val_main_v17 (F := Ideal) x1 x2 x3) (ReadP.val_main_v74 (F := Ideal) x6) (ReadP.val_main_v76 (F := Ideal) x7) r c) := fun c => by
    rw [ReadP.val_main_call2_v5_apply, ref_zrowmax, Ideal.subf_def]
    simp only [ref_logits]
  rw [ReadP.val_main_v79_apply, ReadP.val_main_call2_v10_apply, ReadP.val_main_call2_v9_apply, ReadP.val_main_call2_v8_apply,
    ReadP.val_main_call2_v7_apply]
  have e : ∀ k : Fin 16, ReadP.idx_main_call2_v7 (ReadP.idx_main_call2_v8 (ReadP.idx_main_call2_v10 (ix2 r j))) k = ix2 r k := fun k =>
    funext fun a => Fin.ext (by match a with | ⟨0, _⟩ => rfl | ⟨1, _⟩ => rfl)
  simp only [e, ReadP.val_main_call2_v6_apply, hsh, Ideal.subf_def, Ideal.hostUnary_exp_def, Ideal.hostUnary_log_def]
  show _ - Ideal.log (Ideal.ofBits .f32 0x00000000#32 + _) = _
  rw [Ideal.ofBits_zero_f32, zero_add]
  rfl

theorem ref_cut (x1 : (⟨S2x1600000, .i32⟩ : BufTy).Contents (Elt Ideal)) (x2 : (⟨S64x100000, .f32⟩ : BufTy).Contents (Elt Ideal))
    (x3 : (⟨S64, .f32⟩ : BufTy).Contents (Elt Ideal)) :
    ReadP.val_main_v45 (F := Ideal) x1 x2 x3 ix0
      = Cert.Spec.cut (ReadP.val_main_v33 (F := Ideal) x1 x2 x3) (ReadP.val_main_v43 (F := Ideal) x1 x2 x3) := by
  rw [ReadP.val_main_v45_apply]
  show Ideal.ofBits .f32 0x00000000#32 + _ = _
  rw [Ideal.ofBits_zero_f32, zero_add]
  rfl

theorem ref_dterm (x1 : (⟨S2x1600000, .i32⟩ : BufTy).Contents (Elt Ideal)) (x2 : (⟨S64x100000, .f32⟩ : BufTy).Contents (Elt Ideal))
    (x3 : (⟨S64, .f32⟩ : BufTy).Contents (Elt Ideal)) :
    ReadP.val_main_v54 (F := Ideal) x1 x2 x3 ix0
      = Cert.Spec.dterm (ReadP.val_main_v33 (F := Ideal) x1 x2 x3) (ReadP.val_main_v50 (F := Ideal) x1) := by
  rw [ReadP.val_main_v54_apply]
  show Ideal.ofBits .f32 0x00000000#32 + _ = _
  rw [Ideal.ofBits_zero_f32, zero_add]
  refine Finset.sum_congr rfl fun i _ => ?_
  rw [ReadP.val_main_v53_apply, ReadP.val_main_v52_apply, ReadP.val_main_v51_apply]
  have e : ReadP.idx_main_v51 i = ix2 (i 0) (0 : Fin 1) :=
    funext fun a => Fin.ext (by match a with | ⟨0, _⟩ => rfl | ⟨1, _⟩ => rfl)
  rw [e]
  rfl

theorem ref_gram (x1 : (⟨S2x1600000, .i32⟩ : BufTy).Contents (Elt Ideal)) (x2 : (⟨S64x100000, .f32⟩ : BufTy).Contents (Elt Ideal))
    (x3 : (⟨S64, .f32⟩ : BufTy).Contents (Elt Ideal)) (i j : Fin 64) :
    ReadP.val_main_v58 (F := Ideal) x1 x2 x3 (ix2 i j)
      = Cert.Spec.gram (ReadP.val_main_v33 (F := Ideal) x1 x2 x3) i j := by
  rw [ReadP.val_main_v58_apply]
  refine Finset.sum_congr rfl fun k _ => ?_
  rw [ReadP.val_main_v57_apply]
  have el : ReadP.idx_main_v57 (ReadP.lidx_main_v58 (ix2 i j) k) = ix2 k i :=
    funext fun a => Fin.ext (by match a with | ⟨0, _⟩ => rfl | ⟨1, _⟩ => rfl)
  have er : ReadP.ridx_main_v58 (ix2 i j) k = ix2 k j :=
    funext fun a => Fin.ext (by match a with | ⟨0, _⟩ => rfl | ⟨1, _⟩ => rfl)
  rw [el, er]

end Cert.ReferenceIdeal.RefSpec

end
-- ==== Proof.KI.Glue.lean ====
import proofs.«138361_j81398220194162_1_alg».proof.Proof.KI.Run
import proofs.«138361_j81398220194162_1_alg».proof.Proof.KI.GlueTail
import proofs.«138361_j81398220194162_1_alg».proof.Proof.KI.Val0
import proofs.«138361_j81398220194162_1_alg».proof.Proof.KI.Val1
import proofs.«138361_j81398220194162_1_alg».proof.Proof.KI.Val2
import proofs.«138361_j81398220194162_1_alg».proof.Proof.RefReadP
import proofs.«138361_j81398220194162_1_alg».proof.Proof.RefSpec
import proofs.«138361_j81398220194162_1_alg».proof.Proof.Spec
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)

theorem dense_congr {X X' : Cert.Spec.Mat 100000 128} {Wt Wt' : Cert.Spec.Mat 128 256} {B B' : Cert.Spec.Mat 1 256} (r : Fin 100000) (j : Fin 256)
    (hX : X = X') (hW : Wt = Wt') (hB : B (ix2 0 j) = B' (ix2 0 j)) : Cert.Spec.dense X Wt B r j = Cert.Spec.dense X' Wt' B' r j := by
  subst hX hW; unfold Cert.Spec.dense; rw [hB]

theorem zout_congr {XX XX' : Cert.Spec.Mat 100000 256} {XA XA' : Cert.Spec.Mat 100000 64} {Wt Wt' : Cert.Spec.Mat 320 16} {B B' : Cert.Spec.Mat 1 16}
    (r : Fin 100000) (j : Fin 16) (hXX : XX = XX') (hXA : XA = XA') (hW : Wt = Wt') (hB : ∀ k : Fin 16, B (ix2 0 k) = B' (ix2 0 k)) :
    Cert.Spec.zout XX XA Wt B r j = Cert.Spec.zout XX' XA' Wt' B' r j := by
  subst hXX hXA hW; unfold Cert.Spec.zout Cert.Spec.logits
  exact congrArg (fun f => Cert.Spec.lsmax f j) (funext fun k => by rw [hB k])

theorem dterm_congr {S S' : Cert.Spec.Mat 100000 64} {D D' : Cert.Spec.Mat 100000 1} (hS : S = S') (hD : ∀ r : Fin 100000, D (ix2 r 0) = D' (ix2 r 0)) :
    Cert.Spec.dterm S D = Cert.Spec.dterm S' D' := by
  subst hS; unfold Cert.Spec.dterm
  exact Finset.sum_congr rfl fun i _ => by rw [hD (i 0)]

set_option maxHeartbeats 4000000 in
theorem h17 : Hand.W1 m ρ c (Proc.devRef .tc main_v17) = ReferenceIdeal.ReadP.val_main_v17 a1 a2 a3 := by
  show StableHlo.after hostOps0 _ _ = _
  after_results_simp
  rfl

set_option maxHeartbeats 4000000 in
theorem h18 : Hand.W1 m ρ c (Proc.devRef .tc main_v18) = ReferenceIdeal.ReadP.val_main_v18 a4 := by
  show StableHlo.after hostOps0 _ _ = _
  after_results_simp
  rfl

set_option maxHeartbeats 4000000 in
theorem h19 (j : Fin 256) : Hand.W1 m ρ c (Proc.devRef .tc main_v19) (ix2 0 j) = ReferenceIdeal.ReadP.val_main_v20 a5 (ix2 0 j) := by
  show StableHlo.after hostOps0 _ _ _ = _
  after_results_simp
  rw [ReferenceIdeal.ReadP.val_main_v20_apply]
  exact (shapeCast_a_1a_apply _ _ 0 j).trans (congrArg _ (funext fun a => match a with | ⟨0, _⟩ => rfl))

set_option maxHeartbeats 4000000 in
theorem h0 : Hand.W1 m ρ c (Proc.devRef .tc main_arg0) = a0 :=
  (StableHlo.after_of_writes_sub hostOps0 (Hand.W0 m ρ c) hostOps0_writes (by decide : main_arg0 ∉ hostOps0_W)).trans rfl

theorem hXX : Hand.W2 m ρ c (Proc.devRef .tc main_v20) = ReferenceIdeal.ReadP.val_main_v22 a0 a4 a5 := by
  funext i
  obtain ⟨r, j, rfl⟩ : ∃ r j, i = ix2 r j := ⟨i 0, i 1, eq_ix2 i⟩
  refine (congrFun (Hand.W2_arr m ρ c 3) _).trans ?_
  rw [Val.final0, ReferenceIdeal.RefSpec.ref_dense]
  exact dense_congr r j (h0 m ρ c) (h18 m ρ c) (h19 m ρ c j)

theorem W2_arg6 : Hand.W2 m ρ c (Proc.devRef .tc main_arg6) = a6 :=
  (Hand.W2_of_ne m ρ c main_arg6 (by decide)).trans <|
  (StableHlo.after_of_writes_sub hostOps0 (Hand.W0 m ρ c) hostOps0_writes (by decide : main_arg6 ∉ hostOps0_W)).trans rfl
theorem W2_arg7 : Hand.W2 m ρ c (Proc.devRef .tc main_arg7) = a7 :=
  (Hand.W2_of_ne m ρ c main_arg7 (by decide)).trans <|
  (StableHlo.after_of_writes_sub hostOps0 (Hand.W0 m ρ c) hostOps0_writes (by decide : main_arg7 ∉ hostOps0_W)).trans rfl

set_option maxHeartbeats 4000000 in
theorem h21 : Hand.W3 m ρ c (Proc.devRef .tc main_v21) = ReferenceIdeal.ReadP.val_main_v74 a6 := by
  show StableHlo.after hostOps1 _ _ = _
  after_results_simp
  rw [W2_arg6]
  rfl

set_option maxHeartbeats 4000000 in
theorem h22 (j : Fin 16) : Hand.W3 m ρ c (Proc.devRef .tc main_v22) (ix2 0 j) = ReferenceIdeal.ReadP.val_main_v76 a7 (ix2 0 j) := by
  show StableHlo.after hostOps1 _ _ _ = _
  after_results_simp
  rw [W2_arg7, ReferenceIdeal.ReadP.val_main_v76_apply]
  exact (shapeCast_a_1a_apply _ _ 0 j).trans (congrArg _ (funext fun a => match a with | ⟨0, _⟩ => rfl))

theorem W3_17 : Hand.W3 m ρ c (Proc.devRef .tc main_v17) = ReferenceIdeal.ReadP.val_main_v17 a1 a2 a3 :=
  (StableHlo.after_of_writes_sub hostOps1 (Hand.W2 m ρ c) hostOps1_writes (by decide : main_v17 ∉ hostOps1_W)).trans <|
  (Hand.W2_of_ne m ρ c main_v17 (by decide)).trans (h17 m ρ c)

theorem W3_20 : Hand.W3 m ρ c (Proc.devRef .tc main_v20) = ReferenceIdeal.ReadP.val_main_v22 a0 a4 a5 :=
  (StableHlo.after_of_writes_sub hostOps1 (Hand.W2 m ρ c) hostOps1_writes (by decide : main_v20 ∉ hostOps1_W)).trans (hXX m ρ c)

theorem hS : Hand.W4 m ρ c (Proc.devRef .tc main_v23_0) = ReferenceIdeal.ReadP.val_main_v33 a1 a2 a3 := by
  funext i
  obtain ⟨r, j, rfl⟩ : ∃ r j, i = ix2 r j := ⟨i 0, i 1, eq_ix2 i⟩
  refine (congrFun (Hand.W4_arr m ρ c 4) _).trans ?_
  rw [Val.final1_4, ReferenceIdeal.RefSpec.ref_soft]
  exact congrArg (fun X => Cert.Spec.soft X r j) (W3_17 m ρ c)

theorem hZ : Hand.W4 m ρ c (Proc.devRef .tc main_v23_1) = ReferenceIdeal.ReadP.val_main_v79 a0 a1 a2 a3 a4 a5 a6 a7 := by
  funext i
  obtain ⟨r, j, rfl⟩ : ∃ r j, i = ix2 r j := ⟨i 0, i 1, eq_ix2 i⟩
  refine (congrFun (Hand.W4_arr m ρ c 5) _).trans ?_
  rw [Val.final1_5, ReferenceIdeal.RefSpec.ref_zout]
  exact zout_congr r j (W3_20 m ρ c) (W3_17 m ρ c) (h21 m ρ c) (h22 m ρ c)

set_option maxHeartbeats 4000000 in
theorem h1 : Hand.W1 m ρ c (Proc.devRef .tc main_v1) = ReferenceIdeal.ReadP.val_main_v1 a1 := by
  show StableHlo.after hostOps0 _ _ = _
  after_results_simp
  rfl

set_option maxHeartbeats 4000000 in
theorem h3 : Hand.W1 m ρ c (Proc.devRef .tc main_v3) = ReferenceIdeal.ReadP.val_main_v3 a1 := by
  show StableHlo.after hostOps0 _ _ = _
  after_results_simp
  rfl

theorem W4_1 : Hand.W4 m ρ c (Proc.devRef .tc main_v1) = ReferenceIdeal.ReadP.val_main_v1 a1 :=
  (Hand.W4_of_ne m ρ c main_v1 (by decide)).trans <|
  (StableHlo.after_of_writes_sub hostOps1 (Hand.W2 m ρ c) hostOps1_writes (by decide : main_v1 ∉ hostOps1_W)).trans <|
  (Hand.W2_of_ne m ρ c main_v1 (by decide)).trans (h1 m ρ c)
theorem W4_3 : Hand.W4 m ρ c (Proc.devRef .tc main_v3) = ReferenceIdeal.ReadP.val_main_v3 a1 :=
  (Hand.W4_of_ne m ρ c main_v3 (by decide)).trans <|
  (StableHlo.after_of_writes_sub hostOps1 (Hand.W2 m ρ c) hostOps1_writes (by decide : main_v3 ∉ hostOps1_W)).trans <|
  (Hand.W2_of_ne m ρ c main_v3 (by decide)).trans (h3 m ρ c)

set_option maxHeartbeats 4000000 in
theorem h33 : Hand.W5 m ρ c (Proc.devRef .tc main_v33) = ReferenceIdeal.ReadP.val_main_v43 a1 a2 a3 := by
  show StableHlo.after hostOps2 _ _ = _
  after_results_simp
  rw [hS m ρ c, W4_1, W4_3]
  rfl

set_option maxHeartbeats 4000000 in
theorem h38 (r : Fin 100000) : Hand.W5 m ρ c (Proc.devRef .tc main_v38) (ix2 r 0) = ReferenceIdeal.ReadP.val_main_v50 a1 (ix2 r 0) := by
  show StableHlo.after hostOps2 _ _ _ = _
  after_results_simp
  rw [W4_3, ReferenceIdeal.ReadP.val_main_v50_apply]
  have hi : (ix1 r : ReferenceIdeal.S100000.Idx) = ReferenceIdeal.ReadP.idx_main_v50 (ix2 r 0) :=
    funext fun a => match a with | ⟨0, _⟩ => rfl
  rw [← hi]
  refine (shapeCast_apply _ _ _ (ix1 r) ?_).trans rfl
  refine (Shape.rowMajor_val_one (d := ![100000]) (ix1 r)).trans ?_
  refine Eq.symm ((Shape.rowMajor_val_two (d := ![100000, 1]) (ix2 r (0 : Fin 1))).trans ?_)
  show r.val * 1 + 0 = r.val
  omega

theorem W5_S : Hand.W5 m ρ c (Proc.devRef .tc main_v23_0) = ReferenceIdeal.ReadP.val_main_v33 a1 a2 a3 :=
  (StableHlo.after_of_writes_sub hostOps2 (Hand.W4 m ρ c) hostOps2_writes (by decide : main_v23_0 ∉ hostOps2_W)).trans (hS m ρ c)

theorem hcut : Hand.W6 m ρ c (Proc.devRef .tc main_v39_0) (ix2 (0 : Fin 1) (0 : Fin 1)) = ReferenceIdeal.ReadP.val_main_v45 a1 a2 a3 ix0 := by
  refine (congrFun (Hand.W6_arr m ρ c 3) _).trans ?_
  rw [Val.final2_3, ReferenceIdeal.RefSpec.ref_cut]
  exact congrArg₂ Cert.Spec.cut (W5_S m ρ c) (h33 m ρ c)

theorem hdt : Hand.W6 m ρ c (Proc.devRef .tc main_v39_1) (ix2 (0 : Fin 1) (0 : Fin 1)) = ReferenceIdeal.ReadP.val_main_v54 a1 a2 a3 ix0 := by
  refine (congrFun (Hand.W6_arr m ρ c 4) _).trans ?_
  rw [Val.final2_4, ReferenceIdeal.RefSpec.ref_dterm]
  exact dterm_congr (W5_S m ρ c) (h38 m ρ c)

theorem hG : Hand.W6 m ρ c (Proc.devRef .tc main_v39_2) = ReferenceIdeal.ReadP.val_main_v58 a1 a2 a3 := by
  funext i
  obtain ⟨p, q, rfl⟩ : ∃ p q, i = ix2 p q := ⟨i 0, i 1, eq_ix2 i⟩
  refine (congrFun (Hand.W6_arr m ρ c 5) _).trans ?_
  rw [Val.final2_5, ReferenceIdeal.RefSpec.ref_gram]
  exact congrArg (fun X => Cert.Spec.gram X p q) (W5_S m ρ c)

theorem hloss : Hand.W11 m ρ c (Proc.devRef .tc main_v58) = ReferenceIdeal.ReadP.val_main_v80 a1 a2 a3 :=
  tail_loss m ρ c (hcut m ρ c) (hdt m ρ c) (hG m ρ c)

theorem hz : Hand.W11 m ρ c (Proc.devRef .tc main_v23_1) = ReferenceIdeal.ReadP.val_main_v79 a0 a1 a2 a3 a4 a5 a6 a7 :=
  (tail_keep_z m ρ c).trans (hZ m ρ c)

end Cert.KernelIdeal.Glue

end
-- ==== Proof.KI.Final.lean ====
import proofs.«138361_j81398220194162_1_alg».proof.Proof.KI.Glue
import proofs.«138361_j81398220194162_1_alg».proof.Proof.KI.GlueTail

noncomputable section

namespace Cert.KernelIdeal.Hand

open Cert.KernelIdeal Cert.KernelIdeal.Gen
open Idealize.ShloMosaic Idealize.ShloMosaic.TcCoe Idealize.SL.Sem

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23_1)
        = Cert.ReferenceIdeal.ReadP.val_main_v79 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v58)
        = Cert.ReferenceIdeal.ReadP.val_main_v80 (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_v23_1 (by decide))).trans (Cert.KernelIdeal.Glue.hz m ρ c),
    (h c _ (mem_uc main_v58 (by decide))).trans (Cert.KernelIdeal.Glue.hloss m ρ c),
    (h c _ (mem_uc main_arg0 (by decide))).trans (W11_kept m ρ c main_arg0 (by decide) (by decide) (by decide) (W2_in m ρ c 0 rfl)),
    (h c _ (mem_uc main_arg1 (by decide))).trans (W11_kept m ρ c main_arg1 (by decide) (by decide) (by decide) (W2_of_ne m ρ c main_arg1 (by decide))),
    (h c _ (mem_uc main_arg2 (by decide))).trans (W11_kept m ρ c main_arg2 (by decide) (by decide) (by decide) (W2_of_ne m ρ c main_arg2 (by decide))),
    (h c _ (mem_uc main_arg3 (by decide))).trans (W11_kept m ρ c main_arg3 (by decide) (by decide) (by decide) (W2_of_ne m ρ c main_arg3 (by decide))),
    (h c _ (mem_uc main_arg4 (by decide))).trans (W11_kept m ρ c main_arg4 (by decide) (by decide) (by decide) (W2_of_ne m ρ c main_arg4 (by decide))),
    (h c _ (mem_uc main_arg5 (by decide))).trans (W11_kept m ρ c main_arg5 (by decide) (by decide) (by decide) (W2_of_ne m ρ c main_arg5 (by decide))),
    (h c _ (mem_uc main_arg6 (by decide))).trans (W11_kept m ρ c main_arg6 (by decide) (by decide) (by decide) (W2_of_ne m ρ c main_arg6 (by decide))),
    (h c _ (mem_uc main_arg7 (by decide))).trans (W11_kept m ρ c main_arg7 (by decide) (by decide) (by decide) (W2_of_ne m ρ c main_arg7 (by decide)))⟩) (run_all m ρ)

end Cert.KernelIdeal.Hand

end
-- ==== Proof.RefStages.lean ====
import proofs.«138361_j81398220194162_1_alg».proof.Proof.RefReadP

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

def opsA : List (HloOp τ sig (Elt F)) := (ValueP.ops (F := F)).take 21
def opsB : List (HloOp τ sig (Elt F)) := ((ValueP.ops (F := F)).drop 21).take 5
def opsC : List (HloOp τ sig (Elt F)) := ((ValueP.ops (F := F)).drop 26).take 14
def opsD : List (HloOp τ sig (Elt F)) := ((ValueP.ops (F := F)).drop 40).take 16
def opsE : List (HloOp τ sig (Elt F)) := ((ValueP.ops (F := F)).drop 56).take 16
def opsF : List (HloOp τ sig (Elt F)) := ((ValueP.ops (F := F)).drop 72).take 22
def opsG : List (HloOp τ sig (Elt F)) := ((ValueP.ops (F := F)).drop 94).take 6
def opsH : List (HloOp τ sig (Elt F)) := (ValueP.ops (F := F)).drop 100

theorem ops_split : ValueP.ops (F := F) = opsA ++ (opsB ++ (opsC ++ (opsD ++ (opsE ++ (opsF ++ (opsG ++ opsH)))))) := rfl

theorem after_split (V : Valuation τ sig (Elt F)) :
    after (ValueP.ops (F := F)) V
      = after opsH (after opsG (after opsF (after opsE (after opsD (after opsC (after opsB (after opsA V))))))) := by
  conv_lhs => rw [ops_split]
  simp only [after_append]

local macro "open_stretch" t:ident : tactic =>
  `(tactic| (unfold $t
             simp only [ValueP.ops, List.take_succ_cons, List.take_zero, List.drop_succ_cons, List.drop_zero]))

def argRefs : List (Ref sig .tc) :=
  [main_arg0, main_arg1, main_arg2, main_arg3, main_arg4, main_arg5, main_arg6, main_arg7]

theorem ofBuf_toBuf {T : BufTy} (x : TRef sig T) (v : T.Contents (Elt F)) : x.ofBuf (x.toBuf v) = v := by
  obtain ⟨r, h, _, _⟩ := x; subst h; rfl

theorem A_keep (W : Valuation τ sig (Elt F)) {r : Ref sig .tc} (hr : r ∈ argRefs) :
    after (opsA (F := F)) W (Proc.devRef .tc r) = W (Proc.devRef .tc r) := by
  open_stretch opsA
  simp only [argRefs, List.mem_cons, List.not_mem_nil, or_false] at hr
  rcases hr with rfl | rfl | rfl | rfl | rfl | rfl | rfl | rfl <;> after_results_simp

theorem A_v1 (W : Valuation τ sig (Elt F)) (x1 : (⟨S2x1600000, .i32⟩ : BufTy).Contents (Elt F)) (h1 : W (Proc.devRef .tc main_arg1) = x1) :
    after (opsA (F := F)) W (Proc.devRef .tc main_v1) = val_main_v1 x1 := by
  subst h1; open_stretch opsA; after_results_simp; rfl

theorem A_v3 (W : Valuation τ sig (Elt F)) (x1 : (⟨S2x1600000, .i32⟩ : BufTy).Contents (Elt F)) (h1 : W (Proc.devRef .tc main_arg1) = x1) :
    after (opsA (F := F)) W (Proc.devRef .tc main_v3) = val_main_v3 x1 := by
  subst h1; open_stretch opsA; after_results_simp; rfl

theorem A_v17 (W : Valuation τ sig (Elt F)) (x1 : (⟨S2x1600000, .i32⟩ : BufTy).Contents (Elt F)) (x2 : (⟨S64x100000, .f32⟩ : BufTy).Contents (Elt F)) (x3 : (⟨S64, .f32⟩ : BufTy).Contents (Elt F))
    (h1 : W (Proc.devRef .tc main_arg1) = x1) (h2 : W (Proc.devRef .tc main_arg2) = x2) (h3 : W (Proc.devRef .tc main_arg3) = x3) :
    after (opsA (F := F)) W (Proc.devRef .tc main_v17) = val_main_v17 x1 x2 x3 := by
  subst h1 h2 h3; open_stretch opsA; after_results_simp; rfl

theorem B_keep (W : Valuation τ sig (Elt F)) {r : Ref sig .tc} (hr : r ∈ argRefs ++ [main_v1, main_v3, main_v17]) :
    after (opsB (F := F)) W (Proc.devRef .tc r) = W (Proc.devRef .tc r) := by
  open_stretch opsB
  simp only [argRefs, List.mem_append, List.mem_cons, List.not_mem_nil, or_false] at hr
  rcases hr with (rfl | rfl | rfl | rfl | rfl | rfl | rfl | rfl) | rfl | rfl | rfl <;> after_results_simp

theorem B_v22 (W : Valuation τ sig (Elt F)) (x0 : (⟨S100000x128, .f32⟩ : BufTy).Contents (Elt F)) (x4 : (⟨S256x128, .f32⟩ : BufTy).Contents (Elt F)) (x5 : (⟨S256, .f32⟩ : BufTy).Contents (Elt F))
    (h0 : W (Proc.devRef .tc main_arg0) = x0) (h4 : W (Proc.devRef .tc main_arg4) = x4) (h5 : W (Proc.devRef .tc main_arg5) = x5) :
    after (opsB (F := F)) W (Proc.devRef .tc main_v22) = val_main_v22 x0 x4 x5 := by
  subst h0 h4 h5; open_stretch opsB; after_results_simp; rfl

theorem C_keep (W : Valuation τ sig (Elt F)) {r : Ref sig .tc} (hr : r ∈ argRefs ++ [main_v1, main_v3, main_v22]) :
    after (opsC (F := F)) W (Proc.devRef .tc r) = W (Proc.devRef .tc r) := by
  open_stretch opsC
  simp only [argRefs, List.mem_append, List.mem_cons, List.not_mem_nil, or_false] at hr
  rcases hr with (rfl | rfl | rfl | rfl | rfl | rfl | rfl | rfl) | rfl | rfl | rfl <;> after_results_simp

theorem C_v33 (W : Valuation τ sig (Elt F)) (x1 : (⟨S2x1600000, .i32⟩ : BufTy).Contents (Elt F)) (x2 : (⟨S64x100000, .f32⟩ : BufTy).Contents (Elt F)) (x3 : (⟨S64, .f32⟩ : BufTy).Contents (Elt F))
    (h17 : W (Proc.devRef .tc main_v17) = val_main_v17 x1 x2 x3) :
    after (opsC (F := F)) W (Proc.devRef .tc main_v33) = val_main_v33 x1 x2 x3 := by
  open_stretch opsC; after_results_simp; rw [h17]; rfl

theorem D_keep (W : Valuation τ sig (Elt F)) {r : Ref sig .tc} (hr : r ∈ argRefs ++ [main_v3, main_v22, main_v33]) :
    after (opsD (F := F)) W (Proc.devRef .tc r) = W (Proc.devRef .tc r) := by
  open_stretch opsD
  simp only [argRefs, List.mem_append, List.mem_cons, List.not_mem_nil, or_false] at hr
  rcases hr with (rfl | rfl | rfl | rfl | rfl | rfl | rfl | rfl) | rfl | rfl | rfl <;> after_results_simp

theorem D_v45 (W : Valuation τ sig (Elt F)) (x1 : (⟨S2x1600000, .i32⟩ : BufTy).Contents (Elt F)) (x2 : (⟨S64x100000, .f32⟩ : BufTy).Contents (Elt F)) (x3 : (⟨S64, .f32⟩ : BufTy).Contents (Elt F))
    (h1 : W (Proc.devRef .tc main_v1) = val_main_v1 x1) (h3 : W (Proc.devRef .tc main_v3) = val_main_v3 x1)
    (h33 : W (Proc.devRef .tc main_v33) = val_main_v33 x1 x2 x3) :
    after (opsD (F := F)) W (Proc.devRef .tc main_v45) = val_main_v45 x1 x2 x3 := by
  open_stretch opsD; after_results_simp; rw [h1, h3, h33]; rfl

theorem E_keep (W : Valuation τ sig (Elt F)) {r : Ref sig .tc} (hr : r ∈ argRefs ++ [main_v22, main_v33]) :
    after (opsE (F := F)) W (Proc.devRef .tc r) = W (Proc.devRef .tc r) := by
  open_stretch opsE
  simp only [argRefs, List.mem_append, List.mem_cons, List.not_mem_nil, or_false] at hr
  rcases hr with (rfl | rfl | rfl | rfl | rfl | rfl | rfl | rfl) | rfl | rfl <;> after_results_simp

theorem E_v56 (W : Valuation τ sig (Elt F)) (x1 : (⟨S2x1600000, .i32⟩ : BufTy).Contents (Elt F)) (x2 : (⟨S64x100000, .f32⟩ : BufTy).Contents (Elt F)) (x3 : (⟨S64, .f32⟩ : BufTy).Contents (Elt F))
    (h3 : W (Proc.devRef .tc main_v3) = val_main_v3 x1) (h33 : W (Proc.devRef .tc main_v33) = val_main_v33 x1 x2 x3)
    (h45 : W (Proc.devRef .tc main_v45) = val_main_v45 x1 x2 x3) :
    after (opsE (F := F)) W (Proc.devRef .tc main_v56) = val_main_v56 x1 x2 x3 := by
  open_stretch opsE; after_results_simp; rw [h3, h33, h45]; rfl

theorem E_v58 (W : Valuation τ sig (Elt F)) (x1 : (⟨S2x1600000, .i32⟩ : BufTy).Contents (Elt F)) (x2 : (⟨S64x100000, .f32⟩ : BufTy).Contents (Elt F)) (x3 : (⟨S64, .f32⟩ : BufTy).Contents (Elt F))
    (h33 : W (Proc.devRef .tc main_v33) = val_main_v33 x1 x2 x3) :
    after (opsE (F := F)) W (Proc.devRef .tc main_v58) = val_main_v58 x1 x2 x3 := by
  open_stretch opsE; after_results_simp; rw [h33]; rfl

theorem F_keep (W : Valuation τ sig (Elt F)) {r : Ref sig .tc} (hr : r ∈ argRefs ++ [main_v22, main_v33, main_v56]) :
    after (opsF (F := F)) W (Proc.devRef .tc r) = W (Proc.devRef .tc r) := by
  open_stretch opsF
  simp only [argRefs, List.mem_append, List.mem_cons, List.not_mem_nil, or_false] at hr
  rcases hr with (rfl | rfl | rfl | rfl | rfl | rfl | rfl | rfl) | rfl | rfl | rfl <;> after_results_simp

theorem F_v72 (W : Valuation τ sig (Elt F)) (x1 : (⟨S2x1600000, .i32⟩ : BufTy).Contents (Elt F)) (x2 : (⟨S64x100000, .f32⟩ : BufTy).Contents (Elt F)) (x3 : (⟨S64, .f32⟩ : BufTy).Contents (Elt F))
    (h58 : W (Proc.devRef .tc main_v58) = val_main_v58 x1 x2 x3) :
    after (opsF (F := F)) W (Proc.devRef .tc main_v72) = val_main_v72 x1 x2 x3 := by
  open_stretch opsF; after_results_simp; rw [h58]; rfl

theorem G_keep (W : Valuation τ sig (Elt F)) {r : Ref sig .tc} (hr : r ∈ argRefs ++ [main_v56, main_v72]) :
    after (opsG (F := F)) W (Proc.devRef .tc r) = W (Proc.devRef .tc r) := by
  open_stretch opsG
  simp only [argRefs, List.mem_append, List.mem_cons, List.not_mem_nil, or_false] at hr
  rcases hr with (rfl | rfl | rfl | rfl | rfl | rfl | rfl | rfl) | rfl | rfl <;> after_results_simp

theorem G_v78 (W : Valuation τ sig (Elt F)) (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F))
    (h22 : W (Proc.devRef .tc main_v22) = val_main_v22 x0 x4 x5) (h33 : W (Proc.devRef .tc main_v33) = val_main_v33 x1 x2 x3)
    (h6 : W (Proc.devRef .tc main_arg6) = x6) (h7 : W (Proc.devRef .tc main_arg7) = x7) :
    after (opsG (F := F)) W (Proc.devRef .tc main_v78) = val_main_v78 x0 x1 x2 x3 x4 x5 x6 x7 := by
  subst h6 h7; open_stretch opsG; after_results_simp; rw [h22, h33]; rfl

theorem H_keep (W : Valuation τ sig (Elt F)) {r : Ref sig .tc} (hr : r ∈ argRefs) :
    after (opsH (F := F)) W (Proc.devRef .tc r) = W (Proc.devRef .tc r) := by
  open_stretch opsH
  simp only [argRefs, List.mem_cons, List.not_mem_nil, or_false] at hr
  rcases hr with rfl | rfl | rfl | rfl | rfl | rfl | rfl | rfl <;> after_results_simp

theorem H_v79 (W : Valuation τ sig (Elt F)) (x0 : (⟨S100000x128, .f32⟩ : BufTy).Contents (Elt F)) (x1 : (⟨S2x1600000, .i32⟩ : BufTy).Contents (Elt F)) (x2 : (⟨S64x100000, .f32⟩ : BufTy).Contents (Elt F)) (x3 : (⟨S64, .f32⟩ : BufTy).Contents (Elt F)) (x4 : (⟨S256x128, .f32⟩ : BufTy).Contents (Elt F)) (x5 : (⟨S256, .f32⟩ : BufTy).Contents (Elt F)) (x6 : (⟨S16x320, .f32⟩ : BufTy).Contents (Elt F)) (x7 : (⟨S16, .f32⟩ : BufTy).Contents (Elt F))
    (h78 : W (Proc.devRef .tc main_v78) = val_main_v78 x0 x1 x2 x3 x4 x5 x6 x7) :
    after (opsH (F := F)) W (Proc.devRef .tc main_v79) = val_main_v79 x0 x1 x2 x3 x4 x5 x6 x7 := by
  open_stretch opsH; after_results_simp

  simp only [ofBuf_toBuf]

  rw [show (TRef.of (T := ⟨S100000x16, .f32⟩) main_v78).ofBuf (W (Proc.devRef .tc main_v78)) = val_main_v78 x0 x1 x2 x3 x4 x5 x6 x7 from h78]

  refine Eq.trans (congrArg (TRef.toBuf (TRef.of (T := ⟨S100000x16, .f32⟩) main_v79)) (?_ : _ = val_main_v79 x0 x1 x2 x3 x4 x5 x6 x7)) rfl
  rfl

theorem H_v80 (W : Valuation τ sig (Elt F)) (x1 : (⟨S2x1600000, .i32⟩ : BufTy).Contents (Elt F)) (x2 : (⟨S64x100000, .f32⟩ : BufTy).Contents (Elt F)) (x3 : (⟨S64, .f32⟩ : BufTy).Contents (Elt F))
    (h56 : W (Proc.devRef .tc main_v56) = val_main_v56 x1 x2 x3) (h72 : W (Proc.devRef .tc main_v72) = val_main_v72 x1 x2 x3) :
    after (opsH (F := F)) W (Proc.devRef .tc main_v80) = val_main_v80 x1 x2 x3 := by
  open_stretch opsH; after_results_simp; rw [h56, h72]; rfl

theorem keep6 (V : Valuation τ sig (Elt F)) {r : Ref sig .tc} (hr : r ∈ argRefs) :
    after (opsF (F := F)) (after opsE (after opsD (after opsC (after opsB (after opsA V))))) (Proc.devRef .tc r)
      = V (Proc.devRef .tc r) := by
  rw [F_keep _ (List.mem_append_left _ hr), E_keep _ (List.mem_append_left _ hr), D_keep _ (List.mem_append_left _ hr), C_keep _ (List.mem_append_left _ hr), B_keep _ (List.mem_append_left _ hr), A_keep _ hr]

theorem fold_arg (V : Valuation τ sig (Elt F)) {r : Ref sig .tc} (hr : r ∈ argRefs) :
    after (ValueP.ops (F := F)) V (Proc.devRef .tc r) = V (Proc.devRef .tc r) := by
  rw [after_split, H_keep _ hr, G_keep _ (List.mem_append_left _ hr), keep6 V hr]

theorem fold_results (V : Valuation τ sig (Elt F)) :
    after (ValueP.ops (F := F)) V (Proc.devRef .tc main_v79)
        = val_main_v79 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
    ∧ after (ValueP.ops (F := F)) V (Proc.devRef .tc main_v80)
        = val_main_v80 (V (Proc.devRef .tc main_arg1)) (V (Proc.devRef .tc main_arg2)) (V (Proc.devRef .tc main_arg3)) := by
  rw [after_split]

  have v1A := A_v1 V _ rfl
  have v3A := A_v3 V _ rfl
  have v17A := A_v17 V _ _ _ rfl rfl rfl

  have v1B := (B_keep (after opsA V) (r := main_v1) (by decide)).trans v1A
  have v3B := (B_keep (after opsA V) (r := main_v3) (by decide)).trans v3A
  have v17B := (B_keep (after opsA V) (r := main_v17) (by decide)).trans v17A
  have v22B := B_v22 (after opsA V) _ _ _ (A_keep V (r := main_arg0) (by decide)) (A_keep V (r := main_arg4) (by decide))
    (A_keep V (r := main_arg5) (by decide))

  have v1C := (C_keep (after opsB (after opsA V)) (r := main_v1) (by decide)).trans v1B
  have v3C := (C_keep (after opsB (after opsA V)) (r := main_v3) (by decide)).trans v3B
  have v22C := (C_keep (after opsB (after opsA V)) (r := main_v22) (by decide)).trans v22B
  have v33C := C_v33 (after opsB (after opsA V)) _ _ _ v17B

  have v3D := (D_keep (after opsC (after opsB (after opsA V))) (r := main_v3) (by decide)).trans v3C
  have v22D := (D_keep (after opsC (after opsB (after opsA V))) (r := main_v22) (by decide)).trans v22C
  have v33D := (D_keep (after opsC (after opsB (after opsA V))) (r := main_v33) (by decide)).trans v33C
  have v45D := D_v45 (after opsC (after opsB (after opsA V))) _ _ _ v1C v3C v33C

  have v22E := (E_keep (after opsD (after opsC (after opsB (after opsA V)))) (r := main_v22) (by decide)).trans v22D
  have v33E := (E_keep (after opsD (after opsC (after opsB (after opsA V)))) (r := main_v33) (by decide)).trans v33D
  have v56E := E_v56 (after opsD (after opsC (after opsB (after opsA V)))) _ _ _ v3D v33D v45D
  have v58E := E_v58 (after opsD (after opsC (after opsB (after opsA V)))) _ _ _ v33D

  have v22F := (F_keep (after opsE (after opsD (after opsC (after opsB (after opsA V))))) (r := main_v22) (by decide)).trans v22E
  have v33F := (F_keep (after opsE (after opsD (after opsC (after opsB (after opsA V))))) (r := main_v33) (by decide)).trans v33E
  have v56F := (F_keep (after opsE (after opsD (after opsC (after opsB (after opsA V))))) (r := main_v56) (by decide)).trans v56E
  have v72F := F_v72 (after opsE (after opsD (after opsC (after opsB (after opsA V))))) _ _ _ v58E

  have v56G := (G_keep (after opsF (after opsE (after opsD (after opsC (after opsB (after opsA V)))))) (r := main_v56) (by decide)).trans v56F
  have v72G := (G_keep (after opsF (after opsE (after opsD (after opsC (after opsB (after opsA V)))))) (r := main_v72) (by decide)).trans v72F
  have v78G := G_v78 (after opsF (after opsE (after opsD (after opsC (after opsB (after opsA V)))))) _ _ _ _ _ _ _ _ v22F v33F
    (keep6 V (r := main_arg6) (by decide)) (keep6 V (r := main_arg7) (by decide))

  exact ⟨H_v79 _ _ _ _ _ _ _ _ _ v78G, H_v80 _ _ _ _ v56G v72G⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = val_main_v79 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v80) = val_main_v80 (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v79).trans (fold_results (launchContents m c)).1, (h c main_v80).trans (fold_results (launchContents m c)).2,
      (h c main_arg0).trans (fold_arg (launchContents m c) (r := main_arg0) (by decide)),
      (h c main_arg1).trans (fold_arg (launchContents m c) (r := main_arg1) (by decide)),
      (h c main_arg2).trans (fold_arg (launchContents m c) (r := main_arg2) (by decide)),
      (h c main_arg3).trans (fold_arg (launchContents m c) (r := main_arg3) (by decide)),
      (h c main_arg4).trans (fold_arg (launchContents m c) (r := main_arg4) (by decide)),
      (h c main_arg5).trans (fold_arg (launchContents m c) (r := main_arg5) (by decide)),
      (h c main_arg6).trans (fold_arg (launchContents m c) (r := main_arg6) (by decide)),
      (h c main_arg7).trans (fold_arg (launchContents m c) (r := main_arg7) (by decide))⟩)
    (ValueP.run_fold m ρ)

end Cert.ReferenceIdeal.Stages

end
-- ==== Proof.lean ====
import proofs.«138361_j81398220194162_1_alg».proof.Proof.Gen.Kernel
import proofs.«138361_j81398220194162_1_alg».proof.Proof.Gen.KernelIdeal
import proofs.«138361_j81398220194162_1_alg».proof.Proof.Gen.ReferenceIdeal
import proofs.«138361_j81398220194162_1_alg».proof.Proof.Gen.Pre_finite_inputs
import proofs.«138361_j81398220194162_1_alg».proof.Proof.K.Run
import proofs.«138361_j81398220194162_1_alg».proof.Proof.KI.Final
import proofs.«138361_j81398220194162_1_alg».proof.Proof.RefStages
import proofs.«138361_j81398220194162_1_alg».proof.Defs
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2.2) (Cert.ReferenceIdeal.Stages.run (F := Ideal) m ρ),
  trivial,
  fun m ρ m' ρ' _ hagree =>
    ⟨fun c => Cert.ReferenceIdeal.ReadP.val_main_v79 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
     fun c => Cert.ReferenceIdeal.ReadP.val_main_v80 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
     Cert.KernelIdeal.Hand.kernel_run m ρ,
     (θ_run Cert.ReferenceIdeal.defs _ _).mono (fun _ h c => by
        obtain ⟨e0, e1, e2, e3, e4, e5, e6, e7⟩ := hagree c
        obtain ⟨h79, h80, hargs⟩ := h c
        refine ⟨?_, ?_, hargs⟩
        · rw [h79, e0, e1, e2, e3, e4, e5, e6, e7]
        · rw [h80, e1, e2, e3])
       (Cert.ReferenceIdeal.Stages.run (F := Ideal) m' ρ')⟩⟩

end Cert.Proof

end
